-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1600000 : Shape := ⟨1, ![1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v33 : IVec S1600000 1) : IVec S_ 1 :=
  let main_c_12 : IVec S_ 1 := constantI S_ 1 1#1
  let main_v34 : IVec S_ 1 := (fun x v => Host.reduce IntOp.andi x v reducesTo_S1600000_S_d0 h_S_) main_v33 main_c_12
  let main_v35 : IVec S_ 1 := andi main_v28 main_v34
  main_v35

def fn_part1 {F : FTy → Type} [FloatOps F] (main_arg4 : FVec F S40 .f32) (main_arg5 : FVec F S1600000 .f32) (main_arg6 : IVec S1600000 32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  let main_c_10 : IVec S_ 32 := constantI S_ 32 0#32
  let main_v29 : IVec S1600000 32 := broadcastInDim S1600000 ![] bcast_S_S1600000 main_c_10
  let main_v30 : IVec S1600000 1 := cmpi .sge main_arg6 main_v29
  let main_c_11 : IVec S_ 32 := constantI S_ 32 100000#32
  let main_v31 : IVec S1600000 32 := broadcastInDim S1600000 ![] bcast_S_S1600000 main_c_11
  let main_v32 : IVec S1600000 1 := cmpi .slt main_arg6 main_v31
  let main_v33 : IVec S1600000 1 := andi main_v30 main_v32
  fn_part2 (F := F) main_v28 main_v33

def fn {F : FTy → Type} [FloatOps F] (main_arg0 : FVec F S100000x512 .f32) (main_arg1 : FVec F S512x64 .f32) (main_arg2 : FVec F S64 .f32) (main_arg3 : FVec F S64x40 .f32) (main_arg4 : FVec F S40 .f32) (main_arg5 : FVec F S1600000 .f32) (main_arg6 : IVec S1600000 32) (main_arg7 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg3
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg4 main_arg5 main_arg6 main_v13 main_v16
-- ==== Kernel.lean ====
abbrev S100000x512 : Shape := ⟨2, ![100000, 512]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1600000 : Shape := ⟨1, ![1600000]⟩
abbrev S_ : Shape := ⟨0, ![]⟩
abbrev S1601536 : Shape := ⟨1, ![1601536]⟩
abbrev S1x1601536 : Shape := ⟨2, ![1, 1601536]⟩
abbrev S100000x64 : Shape := ⟨2, ![100000, 64]⟩
abbrev S2000x512 : Shape := ⟨2, ![2000, 512]⟩
abbrev S2000x64 : Shape := ⟨2, ![2000, 64]⟩
abbrev S1601536x64 : Shape := ⟨2, ![1601536, 64]⟩
abbrev S1x2048 : Shape := ⟨2, ![1, 2048]⟩
abbrev S2048x64 : Shape := ⟨2, ![2048, 64]⟩
abbrev S2048x1 : Shape := ⟨2, ![2048, 1]⟩
abbrev S1x2000 : Shape := ⟨2, ![1, 2000]⟩
abbrev S2048x2000 : Shape := ⟨2, ![2048, 2000]⟩
abbrev S1x64 : Shape := ⟨2, ![1, 64]⟩
abbrev S2000x1 : Shape := ⟨2, ![2000, 1]⟩
abbrev S2000x2048 : Shape := ⟨2, ![2000, 2048]⟩
abbrev S100000x40 : Shape := ⟨2, ![100000, 40]⟩
abbrev S2000x40 : Shape := ⟨2, ![2000, 40]⟩
abbrev S1601536x40 : Shape := ⟨2, ![1601536, 40]⟩
abbrev S2048x40 : Shape := ⟨2, ![2048, 40]⟩
abbrev S1x40 : Shape := ⟨2, ![1, 40]⟩
abbrev S2000 : Shape := ⟨1, ![2000]⟩

abbrev nBuf : Space → Nat
  | .hbm => 28
  | .vmem => 44
  | .smem => 0
  | _ => 0

abbrev bufTy : (tb : Table) → Fin (tcTables nBuf tb) → BufTy
  | .hbm, ⟨0, _⟩ => ⟨S100000x512, .f32⟩
  | .hbm, ⟨1, _⟩ => ⟨S512x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S_, .i32⟩
  | .hbm, ⟨10, _⟩ => ⟨S1601536, .i32⟩
  | .hbm, ⟨11, _⟩ => ⟨S_, .i32⟩
  | .hbm, ⟨12, _⟩ => ⟨S_, .i32⟩
  | .hbm, ⟨13, _⟩ => ⟨S1601536, .i32⟩
  | .hbm, ⟨14, _⟩ => ⟨S_, .i32⟩
  | .hbm, ⟨15, _⟩ => ⟨S_, .f32⟩
  | .hbm, ⟨16, _⟩ => ⟨S1601536, .f32⟩
  | .hbm, ⟨17, _⟩ => ⟨S1x1601536, .i32⟩
  | .hbm, ⟨18, _⟩ => ⟨S1x1601536, .i32⟩
  | .hbm, ⟨19, _⟩ => ⟨S1x1601536, .f32⟩
  | .hbm, ⟨20, _⟩ => ⟨S100000x64, .f32⟩
  | .hbm, ⟨21, _⟩ => ⟨S1601536x64, .f32⟩
  | .hbm, ⟨22, _⟩ => ⟨S1x64, .f32⟩
  | .hbm, ⟨23, _⟩ => ⟨S100000x64, .f32⟩
  | .hbm, ⟨24, _⟩ => ⟨S100000x40, .f32⟩
  | .hbm, ⟨25, _⟩ => ⟨S1601536x40, .f32⟩
  | .hbm, ⟨26, _⟩ => ⟨S1x40, .f32⟩
  | .hbm, ⟨27, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S1x2048, .i32⟩
  | .local _ .vmem, ⟨6, _⟩ => ⟨S1x2048, .i32⟩
  | .local _ .vmem, ⟨7, _⟩ => ⟨S1x2048, .f32⟩
  | .local _ .vmem, ⟨8, _⟩ => ⟨S1x2048, .f32⟩
  | .local _ .vmem, ⟨9, _⟩ => ⟨S2000x64, .f32⟩
  | .local _ .vmem, ⟨10, _⟩ => ⟨S2000x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S1x2048, .i32⟩
  | .local _ .vmem, ⟨15, _⟩ => ⟨S1x2048, .i32⟩
  | .local _ .vmem, ⟨16, _⟩ => ⟨S2048x64, .f32⟩
  | .local _ .vmem, ⟨17, _⟩ => ⟨S2048x64, .f32⟩
  | .local _ .vmem, ⟨18, _⟩ => ⟨S1x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x40, .f32⟩
  | .local _ .vmem, ⟨25, _⟩ => ⟨S2000x40, .f32⟩
  | .local _ .vmem, ⟨26, _⟩ => ⟨S2000x40, .f32⟩
  | .local _ .vmem, ⟨27, _⟩ => ⟨S1x2048, .i32⟩
  | .local _ .vmem, ⟨28, _⟩ => ⟨S1x2048, .i32⟩
  | .local _ .vmem, ⟨29, _⟩ => ⟨S1x2048, .f32⟩
  | .local _ .vmem, ⟨30, _⟩ => ⟨S1x2048, .f32⟩
  | .local _ .vmem, ⟨31, _⟩ => ⟨S2000x40, .f32⟩
  | .local _ .vmem, ⟨32, _⟩ => ⟨S2000x40, .f32⟩
  | .local _ .vmem, ⟨33, _⟩ => ⟨S2048x40, .f32⟩
  | .local _ .vmem, ⟨34, _⟩ => ⟨S2048x40, .f32⟩
  | .local _ .vmem, ⟨35, _⟩ => ⟨S2048x40, .f32⟩
  | .local _ .vmem, ⟨36, _⟩ => ⟨S1x2048, .i32⟩
  | .local _ .vmem, ⟨37, _⟩ => ⟨S1x2048, .i32⟩
  | .local _ .vmem, ⟨38, _⟩ => ⟨S2048x40, .f32⟩
  | .local _ .vmem, ⟨39, _⟩ => ⟨S2048x40, .f32⟩
  | .local _ .vmem, ⟨40, _⟩ => ⟨S1x40, .f32⟩
  | .local _ .vmem, ⟨41, _⟩ => ⟨S2000x40, .f32⟩
  | .local _ .vmem, ⟨42, _⟩ => ⟨S2000x40, .f32⟩
  | .local _ .vmem, ⟨43, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![782, 50], ![false, false]⟩

def k1_cond2 (i : grid1.Coords) : BitVec 1 :=
  let arg1 : BitVec 32 := BitVec.ofNat 32 (i 1).val
  let c49_i32 : BitVec 32 := 49#32
  let v30 : BitVec 1 := Scalar.cmpi .eq arg1 c49_i32
  let v31 : BitVec 32 := Scalar.extui v30
  let c0_i32_11 : BitVec 32 := 0#32
  let v32 : BitVec 1 := Scalar.cmpi .ne v31 c0_i32_11
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![50, 782], ![false, false]⟩

def k2_cond2 (i : grid2.Coords) : BitVec 1 :=
  let arg1 : BitVec 32 := BitVec.ofNat 32 (i 1).val
  let c781_i32 : BitVec 32 := 781#32
  let v25 : BitVec 1 := Scalar.cmpi .eq arg1 c781_i32
  let v26 : BitVec 32 := Scalar.extui v25
  let c0_i32_10 : BitVec 32 := 0#32
  let v27 : BitVec 1 := Scalar.cmpi .ne v26 c0_i32_10
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![782, 50], ![false, false]⟩

def k4_cond2 (i : grid4.Coords) : BitVec 1 :=
  let arg1 : BitVec 32 := BitVec.ofNat 32 (i 1).val
  let c49_i32 : BitVec 32 := 49#32
  let v30 : BitVec 1 := Scalar.cmpi .eq arg1 c49_i32
  let v31 : BitVec 32 := Scalar.extui v30
  let c0_i32_11 : BitVec 32 := 0#32
  let v32 : BitVec 1 := Scalar.cmpi .ne v31 c0_i32_11
  v32

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![50, 782], ![false, false]⟩

def k5_cond2 (i : grid5.Coords) : BitVec 1 :=
  let arg1 : BitVec 32 := BitVec.ofNat 32 (i 1).val
  let c781_i32 : BitVec 32 := 781#32
  let v25 : BitVec 1 := Scalar.cmpi .eq arg1 c781_i32
  let v26 : BitVec 32 := Scalar.extui v25
  let c0_i32_10 : BitVec 32 := 0#32
  let v27 : BitVec 1 := Scalar.cmpi .ne v26 c0_i32_10
  v27

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x2048 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x40 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  pads_S1600000_S1601536_015360 : S1600000.Pads (![0] : Fin 1 → Nat) ![1536] ![0] S1601536
  h_S_ : 0 < S_.numel
  shapeCasts_S1601536_S1x1601536 : S1601536.ShapeCasts S1x1601536
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  transposes_S1x2048_p1_0_S2048x1 : S1x2048.Transposes [1, 0] S2048x1
  iota_S1x2000_d1_w32 : S1x2000.Iotas .tc 32 [1]
  broadcasts_S2048x1_S2048x2000 : S2048x1.Broadcasts S2048x2000
  broadcasts_S1x2000_S2048x2000 : S1x2000.Broadcasts S2048x2000
  shapeCasts_S2048x1_S2048x1 : S2048x1.ShapeCasts S2048x1
  shapeCasts_S2000x64_S2000x64 : S2000x64.ShapeCasts S2000x64
  shapeCasts_S64_S1x64 : S64.ShapeCasts S1x64
  iota_S2000x1_d0_w32 : S2000x1.Iotas .tc 32 [0]
  broadcasts_S2000x1_S2000x2048 : S2000x1.Broadcasts S2000x2048
  broadcasts_S1x2048_S2000x2048 : S1x2048.Broadcasts S2000x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  inb_S2000x40_S2000x40_0_0 : ∀ a, (![0, 0] : Fin 2 → Nat) a + S2000x40.size a ≤ S2000x40.size a
  h_S2000x40 : 0 < S2000x40.numel
  inb_S2048x40_S2048x40_0_0 : ∀ a, (![0, 0] : Fin 2 → Nat) a + S2048x40.size a ≤ S2048x40.size a
  h_S2048x40 : 0 < S2048x40.numel
  shapeCasts_S2048x40_S2048x40 : S2048x40.ShapeCasts S2048x40
  shapeCasts_S2000x40_S2000x40 : S2000x40.ShapeCasts S2000x40
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x512_S512x64_S2000x64_1_0_0_1_n_n_wf : DotDims.WF S2000x512 S512x64 S2000x64 [1] [0] [0] [1] [] []
  dot_S2048x2000_S2000x64_S2048x64_1_0_0_1_n_n_wf : DotDims.WF S2048x2000 S2000x64 S2048x64 [1] [0] [0] [1] [] []
  dot_S2000x2048_S2048x64_S2000x64_1_0_0_1_n_n_wf : DotDims.WF S2000x2048 S2048x64 S2000x64 [1] [0] [0] [1] [] []
  dot_S2000x64_S64x40_S2000x40_1_0_0_1_n_n_wf : DotDims.WF S2000x64 S64x40 S2000x40 [1] [0] [0] [1] [] []
  dot_S2048x2000_S2000x40_S2048x40_1_0_0_1_n_n_wf : DotDims.WF S2048x2000 S2000x40 S2048x40 [1] [0] [0] [1] [] []
  dot_S2000x2048_S2048x40_S2000x40_1_0_0_1_n_n_wf : DotDims.WF S2000x2048 S2048x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x1601536.size a
  hwx1_0 : ∀ i : grid1.Coords, EltTy.bits .i32 = 32 ∨ (Rect.block (s := S1x1601536) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x1601536.size a
  hwx1_1 : ∀ i : grid1.Coords, EltTy.bits .f32 = 32 ∨ (Rect.block (s := S1x1601536) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S1601536x64.size a
  hwx1_3 : ∀ i : grid1.Coords, EltTy.bits .f32 = 32 ∨ (Rect.block (s := S1601536x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x1601536.size a
  hwx2_0 : ∀ i : grid2.Coords, EltTy.bits .i32 = 32 ∨ (Rect.block (s := S1x1601536) S1x2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S1601536x64.size a
  hwx2_1 : ∀ i : grid2.Coords, EltTy.bits .f32 = 32 ∨ (Rect.block (s := S1601536x64) S2048x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048.size a ≤ S1x1601536.size a
  hwx4_0 : ∀ i : grid4.Coords, EltTy.bits .i32 = 32 ∨ (Rect.block (s := S1x1601536) S1x2048.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x1601536.size a
  hwx4_1 : ∀ i : grid4.Coords, EltTy.bits .f32 = 32 ∨ (Rect.block (s := S1x1601536) S1x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S100000x40.size a
  hwx4_2 : ∀ i : grid4.Coords, EltTy.bits .f32 = 32 ∨ (Rect.block (s := S100000x40) S2000x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x40.size a ≤ S1601536x40.size a
  hwx4_3 : ∀ i : grid4.Coords, EltTy.bits .f32 = 32 ∨ (Rect.block (s := S1601536x40) S2048x40.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2048.size a ≤ S1x1601536.size a
  hwx5_0 : ∀ i : grid5.Coords, EltTy.bits .i32 = 32 ∨ (Rect.block (s := S1x1601536) S1x2048.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x40.size a ≤ S1601536x40.size a
  hwx5_1 : ∀ i : grid5.Coords, EltTy.bits .f32 = 32 ∨ (Rect.block (s := S1601536x40) S2048x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x40.size a ≤ S100000x40.size a
  hwx5_3 : ∀ i : grid5.Coords, EltTy.bits .f32 = 32 ∨ (Rect.block (s := S100000x40) S2000x40.size (cc5_transform_3 i) (hinb5_3 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def dot_S2048x2000_S2000x64_S2048x64_1_0_0_1_n_n : DotDims S2048x2000 S2000x64 S2048x64 where
  lhsContracting := [1]
  rhsContracting := [0]
  lhsNonContracting := [0]
  rhsNonContracting := [1]
  lhsBatch := []
  rhsBatch := []
  wf := dot_S2048x2000_S2000x64_S2048x64_1_0_0_1_n_n_wf
def dot_S2000x2048_S2048x64_S2000x64_1_0_0_1_n_n : DotDims S2000x2048 S2048x64 S2000x64 where
  lhsContracting := [1]
  rhsContracting := [0]
  lhsNonContracting := [0]
  rhsNonContracting := [1]
  lhsBatch := []
  rhsBatch := []
  wf := dot_S2000x2048_S2048x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def dot_S2048x2000_S2000x40_S2048x40_1_0_0_1_n_n : DotDims S2048x2000 S2000x40 S2048x40 where
  lhsContracting := [1]
  rhsContracting := [0]
  lhsNonContracting := [0]
  rhsNonContracting := [1]
  lhsBatch := []
  rhsBatch := []
  wf := dot_S2048x2000_S2000x40_S2048x40_1_0_0_1_n_n_wf
def dot_S2000x2048_S2048x40_S2000x40_1_0_0_1_n_n : DotDims S2000x2048 S2048x40 S2000x40 where
  lhsContracting := [1]
  rhsContracting := [0]
  lhsNonContracting := [0]
  rhsNonContracting := [1]
  lhsBatch := []
  rhsBatch := []
  wf := dot_S2000x2048_S2048x40_S2000x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v4) S1x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v9) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S1x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S1x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v10) S2000x40.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v11) S2048x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v4) S1x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v11) S2048x40.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v13) S2000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S100000x512 : Shape := ⟨2, ![100000, 512]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1600000 : Shape := ⟨1, ![1600000]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x64, .f32⟩
  | .hbm, ⟨2, _⟩ => ⟨S64, .f32⟩
  | .hbm, ⟨3, _⟩ => ⟨S64x40, .f32⟩
  | .hbm, ⟨4, _⟩ => ⟨S40, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x40, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x40, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x1, .f32⟩
  | .hbm, ⟨64, _⟩ => ⟨S100000x40, .f32⟩
  | .hbm, ⟨65, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.BitsPointsPatched.lean ====
import proofs.«414299_j48155173322928_2_alg».proof.Proof.Gen.Kernel
import Idealize.ShloMosaic.Lib.Pipeline.Kit

noncomputable section

namespace Cert.Kernel.Gen

open Idealize.ShloMosaic Idealize.ShloMosaic.TcCoe
open Idealize.SL Idealize.SL.Sem

variable {F : FTy → Type} [FloatOps F]

/-- Two block indices (x, 0) and (y, 0) differ exactly when x and y do. -/
private theorem pair_ne_iff (x y : Nat) : (![x, 0] : Fin 2 → Nat) ≠ ![y, 0] ↔ x ≠ y :=
  not_congr ⟨fun e => congrFun e 0, fun e => by rw [e]⟩

private theorem flush_iff {G : Pipeline.Grid} (w : Pipeline.Window sig G) (hout : w.isOut = true) (f : Nat → Nat)
    (hidx : ∀ t t' : Fin G.N, w.index t' ≠ w.index t ↔ f t'.val ≠ f t.val) (t : Fin G.N) :
    w.flush t = true ↔ (t.val + 1 = G.N ∨ (t.val + 1 < G.N ∧ f (t.val + 1) ≠ f t.val)) := by
  unfold Pipeline.Window.flush
  simp only [hout, Bool.true_and, Bool.or_eq_true, decide_eq_true_eq]
  exact or_congr Iff.rfl ⟨fun ⟨h, hne⟩ => ⟨h, (hidx t ⟨_, h⟩).1 hne⟩, fun ⟨h, hne⟩ => ⟨h, (hidx t ⟨_, h⟩).2 hne⟩⟩

/-- On the 782 × 50 grid, row-major, the output block index at point t is (t / 50, 0). -/
private theorem index1_3 (t : Fin grid1.N) : win1_3.index t = ![t.val / 50, 0] := by
  have ht : t.val < 39100 := t.isLt.trans_eq (by decide)
  show ![(BitVec.ofNat 32 (t.val / grid1.stride 0 % 782)).toNat, (0#32 : BitVec 32).toNat] = _
  rw [show grid1.stride 0 = 50 by decide, BitVec.toNat_ofNat, show t.val / 50 % 782 % 2 ^ 32 = t.val / 50 by omega]
  rfl

/-- On the 50 × 782 grid, row-major, the output block index at point t is (t / 782, 0). -/
private theorem index2_3 (t : Fin grid2.N) : win2_3.index t = ![t.val / 782, 0] := by
  have ht : t.val < 39100 := t.isLt.trans_eq (by decide)
  show ![(BitVec.ofNat 32 (t.val / grid2.stride 0 % 50)).toNat, (0#32 : BitVec 32).toNat] = _
  rw [show grid2.stride 0 = 782 by decide, BitVec.toNat_ofNat, show t.val / 782 % 50 % 2 ^ 32 = t.val / 782 by omega]
  rfl

theorem flush0_2 : ∀ t : Fin cfg0.N, (cfg0.win 2).flush t = true :=
  (by decide +kernel : ∀ t : Fin grid0.N, win0_2.flush t = true)

/-- t / 50 changes at the next point exactly when t % 50 = 49, which also holds at the last point. -/
theorem flush1_3 : ∀ t : Fin cfg1.N, (cfg1.win 3).flush t = true ↔ t.val % 50 = 49 := fun t =>
  (flush_iff win1_3 rfl (· / 50) (fun t t' => by rw [index1_3 t, index1_3 t']; exact pair_ne_iff _ _) t).trans (by
    have ht : t.val < grid1.N := t.isLt
    have hN : grid1.N = 39100 := by decide
    omega)

/-- t / 782 changes at the next point exactly when t % 782 = 781, which also holds at the last point. -/
theorem flush2_3 : ∀ t : Fin cfg2.N, (cfg2.win 3).flush t = true ↔ t.val % 782 = 781 := fun t =>
  (flush_iff win2_3 rfl (· / 782) (fun t t' => by rw [index2_3 t, index2_3 t']; exact pair_ne_iff _ _) t).trans (by
    have ht : t.val < grid2.N := t.isLt
    have hN : grid2.N = 39100 := by decide
    omega)

theorem flush3_2 : ∀ t : Fin cfg3.N, (cfg3.win 2).flush t = true :=
  (by decide +kernel : ∀ t : Fin grid3.N, win3_2.flush t = true)

theorem flush4_3 : ∀ t : Fin cfg4.N, (cfg4.win 3).flush t = true ↔ t.val % 50 = 49 := flush1_3

theorem flush5_3 : ∀ t : Fin cfg5.N, (cfg5.win 3).flush t = true ↔ t.val % 782 = 781 := flush2_3

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev bodyAt0 (t : Fin cfg0.N) : Prog (TpuEff nD τ sig (Elt F) Λ₀ .tc) PUnit :=
  cc0__matmul_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev bodyAt3 (t : Fin cfg3.N) : Prog (TpuEff nD τ sig (Elt F) Λ₀ .tc) PUnit :=
  cc3__matmul_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)
abbrev bodyAt4 (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)
abbrev bodyAt5 (t : Fin cfg5.N) : Prog (TpuEff nD τ sig (Elt F) Λ₀ .tc) PUnit :=
  cc5__scatter_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (Memref.whole cc5_scratch0) (Memref.isWhole_whole _)

end Cert.Kernel.Gen

end
-- ==== Proof.BitsBlocks.lean ====
import proofs.«414299_j48155173322928_2_alg».proof.Proof.Gen.Kernel.Launch
import proofs.«414299_j48155173322928_2_alg».proof.Proof.Gen.Kernel.Skeleton
import proofs.«414299_j48155173322928_2_alg».proof.Proof.BitsPointsPatched

noncomputable section

namespace Cert.Kernel.Tiles

open Idealize.ShloMosaic Idealize.ShloMosaic.TcCoe
open Idealize.SL Idealize.SL.Sem
open Cert.Kernel Cert.Kernel.Gen

variable {F : FTy → Type} [FloatOps F]
variable (V : (c : Dev nD) → (b : Ref sig .tc) → Buf (Elt F) ((c : Thread nD τ).loc b))

-- window w's block at point t of each of the six computations, read off the array as V holds it
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Cert.Kernel.Tiles

end
-- ==== Proof.BitsDenseTile0.lean ====
import proofs.«414299_j48155173322928_2_alg».proof.Proof.BitsBlocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeros0 : (![0, 0] : Fin 2 → Nat) = fun _ => 0 := funext fun a => by fin_cases a <;> rfl

abbrev r0_0 : Rect S2000x512 := Rect.unit (s := S2000x512) ![0, 0] S2000x512.size inb_S2000x512_S2000x512_0_0
abbrev r0_1 : Rect S512x64 := Rect.unit (s := S512x64) ![0, 0] S512x64.size inb_S512x64_S512x64_0_0
abbrev r0_2 : Rect S2000x64 := Rect.unit (s := S2000x64) ![0, 0] S2000x64.size inb_S2000x64_S2000x64_0_0

def out0_2 (x0 : Vec F S2000x512 .f32) (x1 : Vec F S512x64 .f32) : Vec F S2000x64 .f32 :=
  View.canon [⟨r0_2, k0_pay1 (View.ld x0 r0_0) (View.ld x1 r0_1)⟩]

theorem out0_2_eq (x0 : Vec F S2000x512 .f32) (x1 : Vec F S512x64 .f32) : out0_2 x0 x1 = k0_pay1 x0 x1 := by
  unfold out0_2
  rw [View.canon_unit_zero zeros0, View.ld_unit_zero (S := S2000x512) zeros0, View.ld_unit_zero (S := S512x64) zeros0]

theorem cover0_2 (p0 : Vec F S2000x64 .f32) (y : S2000x64.Idx) :
    ∃ pc ∈ ([⟨r0_2, p0⟩] : List (View.Piece (Elt F) S2000x64 .f32)), y ∈ pc.1.set :=
  ⟨_, List.mem_singleton_self _, View.mem_set_unit_zero zeros0 inb_S2000x64_S2000x64_0_0 y⟩

set_option maxHeartbeats 1000000 in

theorem sound_kernel0 (c : Dev nD) (E : Set ℕ) (i : grid0.Coords)
    (arg1 : Memref sig .tc .vmem S2000x512 .f32) (harg1 : arg1.IsWhole)
    (arg2 : Memref sig .tc .vmem S512x64 .f32) (harg2 : arg2.IsWhole)
    (arg3 : Memref sig .tc .vmem S2000x64 .f32) (harg3 : arg3.IsWhole)
    (x0 : Vec F S2000x512 .f32) (x1 : Vec F S512x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_in0 (c : Dev nD) (t : Fin cfg0.N) : (dat0 V c).after 0 t = iblk0 V c 0 t := by dsimp only [dat0]
theorem after0_in1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem after0_out (c : Dev nD) (t : Fin cfg0.N) : (dat0 V c).after 2 t = k0_pay1 (iblk0 V c 0 t) (iblk0 V c 1 t) :=
  (after0_2 V c t).trans (out0_2_eq _ _)

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_in0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_in1]; unfold Dat.blockOf iblk0; rw [A_eq0]; try rfl) t d).trans
    (by unfold Dat.fetched Dat.blockOf iblk0; rw [A_eq0]; try rfl)

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_in0, after0_in1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.Kernel.Tiles

end
-- ==== Proof.BitsDenseTile3.lean ====
import proofs.«414299_j48155173322928_2_alg».proof.Proof.BitsBlocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeros3 : (![0, 0] : Fin 2 → Nat) = fun _ => 0 := funext fun a => by fin_cases a <;> rfl

abbrev r3_0 : Rect S2000x64 := Rect.unit (s := S2000x64) ![0, 0] S2000x64.size inb_S2000x64_S2000x64_0_0
abbrev r3_1 : Rect S64x40 := Rect.unit (s := S64x40) ![0, 0] S64x40.size inb_S64x40_S64x40_0_0
abbrev r3_2 : Rect S2000x40 := Rect.unit (s := S2000x40) ![0, 0] S2000x40.size inb_S2000x40_S2000x40_0_0

def out3_2 (x0 : Vec F S2000x64 .f32) (x1 : Vec F S64x40 .f32) : Vec F S2000x40 .f32 :=
  View.canon [⟨r3_2, k3_pay1 (View.ld x0 r3_0) (View.ld x1 r3_1)⟩]

theorem out3_2_eq (x0 : Vec F S2000x64 .f32) (x1 : Vec F S64x40 .f32) : out3_2 x0 x1 = k3_pay1 x0 x1 := by
  unfold out3_2
  rw [View.canon_unit_zero zeros3, View.ld_unit_zero (S := S2000x64) zeros3, View.ld_unit_zero (S := S64x40) zeros3]

theorem cover3_2 (p0 : Vec F S2000x40 .f32) (y : S2000x40.Idx) :
    ∃ pc ∈ ([⟨r3_2, p0⟩] : List (View.Piece (Elt F) S2000x40 .f32)), y ∈ pc.1.set :=
  ⟨_, List.mem_singleton_self _, View.mem_set_unit_zero zeros3 inb_S2000x40_S2000x40_0_0 y⟩

set_option maxHeartbeats 1000000 in

theorem sound_kernel3 (c : Dev nD) (E : Set ℕ) (i : grid3.Coords)
    (arg1 : Memref sig .tc .vmem S2000x64 .f32) (harg1 : arg1.IsWhole)
    (arg2 : Memref sig .tc .vmem S64x40 .f32) (harg2 : arg2.IsWhole)
    (arg3 : Memref sig .tc .vmem S2000x40 .f32) (harg3 : arg3.IsWhole)
    (x0 : Vec F S2000x64 .f32) (x1 : Vec F S64x40 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_in0 (c : Dev nD) (t : Fin cfg3.N) : (dat3 V c).after 0 t = iblk3 V c 0 t := by dsimp only [dat3]
theorem after3_in1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem after3_out (c : Dev nD) (t : Fin cfg3.N) : (dat3 V c).after 2 t = k3_pay1 (iblk3 V c 0 t) (iblk3 V c 1 t) :=
  (after3_2 V c t).trans (out3_2_eq _ _)

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_in0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_in1]; unfold Dat.blockOf iblk3; rw [A_eq3]; try rfl) t d).trans
    (by unfold Dat.fetched Dat.blockOf iblk3; rw [A_eq3]; try rfl)

theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t))) := by
  unfold bodyAt3
  simp only [before3_0, before3_1]
  rw [show (dat3 V c).Φ t.succ = (dat3 V c).Φ t.castSucc from rfl,
    show (dat3 V c).owesAt () t.succ = (dat3 V c).owesAt () t.castSucc from rfl,
    after3_in0, after3_in1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.Kernel.Tiles

end
-- ==== Proof.BitsGatherTile1.lean ====
import proofs.«414299_j48155173322928_2_alg».proof.Proof.BitsBlocks
import Idealize.ShloMosaic.Lib.Pipeline.Value
import Idealize.ShloMosaic.Lib.Tactic

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop :=
  (Scalar.cmpi .ne (Scalar.extui (Scalar.cmpi .eq (BitVec.ofNat 32 (i 1).val) 0#32)) 0#32) = 1#1
abbrev cond1_1 (i : grid1.Coords) : Prop := k1_cond2 i = 1#1

-- The body's test of the fast coordinate (t modulo the row length 50: no axis follows it) against k singles out the k-th point of each row.
theorem hcond1 (t : Fin cfg1.N) (k : ℕ) (hk : k < 50) :
    Scalar.cmpi .ne (Scalar.extui (Scalar.cmpi .eq (BitVec.ofNat 32 (grid1.coords t 1).val) (BitVec.ofNat 32 k))) 0#32 = 1#1
      ↔ t.val % 50 = k := by
  rw [Scalar.guard_iff, Scalar.cmpi, IntOp.cmpi_eq, ← BitVec.toNat_inj, BitVec.toNat_ofNat, BitVec.toNat_ofNat,
    show (grid1.coords t 1).val = t.val / grid1.stride 1 % 50 from rfl, (by decide : grid1.stride 1 = 1)]
  omega

theorem hz1 : (![0, 0] : Fin 2 → ℕ) = fun _ => 0 := by funext a; fin_cases a <;> rfl

set_option maxHeartbeats 4000000 in
-- One run of the body: the accumulator becomes the point's update of zero (start of a row) or of its old value; at the end of a row the result is the new accumulator.
theorem sound_kernel1 (c : Dev nD) (i : grid1.Coords)
    (mD : Memref sig .tc .vmem S1x2048 .i32) (hD : mD.IsWhole) (mW : Memref sig .tc .vmem S1x2048 .f32) (hW : mW.IsWhole)
    (mX : Memref sig .tc .vmem S2000x64 .f32) (hX : mX.IsWhole) (mO : Memref sig .tc .vmem S2048x64 .f32) (hO : mO.IsWhole)
    (mS : Memref sig .tc .vmem S2048x64 .f32) (hS : mS.IsWhole) (h : cond1_0 i → ¬cond1_1 i)
    (x0 : Vec F S1x2048 .i32) (x1 : Vec F S1x2048 .f32) (x2 : Vec F S2000x64 .f32) (xo xs : Vec F S2048x64 .f32)
    (E : Set ℕ) (K : PUnit → sProp 𝕄) :
    iprop(owns c.tc mD fullShare x0 ∗ owns c.tc mW fullShare x1 ∗ owns c.tc mX fullShare x2
        ∗ owns c.tc mO fullShare xo ∗ owns c.tc mS fullShare xs
        ∗ (owns c.tc mD fullShare x0 -∗ owns c.tc mW fullShare x1 -∗ owns c.tc mX fullShare x2
            -∗ owns c.tc mO fullShare (if cond1_1 i then k1_pay2 i x0 x1 x2 (if cond1_0 i then k1_pay1 else xs) else xo)
            -∗ owns c.tc mS fullShare (k1_pay2 i x0 x1 x2 (if cond1_0 i then k1_pay1 else xs)) -∗ K ⟨⟩))
      ⊢ wp frame (wpE (defs₀ (F := F)) Variants.none c none) E (cc1__gather_kernel i mD hD mW hW mX hX mO hO mS hS) K := by
  by_cases hc0 : cond1_0 i <;> by_cases hc1 : cond1_1 i
  · exact absurd hc1 (h hc0)
  all_goals
    first | rw [if_pos hc0] | rw [if_neg hc0]
    first | rw [if_pos hc1] | rw [if_neg hc1]
    simp only [cc1__gather_kernel_eq_skeleton]; unfold cc1__gather_kernel_skel owns
    iintro ⟨⟨%f0, %e0, H0⟩, ⟨%f1, %e1, H1⟩, ⟨%f2, %e2, H2⟩, ⟨%f3, %e3, H3⟩, ⟨%fs, %es, HS⟩, Hk⟩
    subst e0 e1 e2 e3 es
    sl_exec
    sl_step
    iapply Hk $$ [H0] [H1] [H2] [H3] [HS]
    all_goals
      iexists _; isplitr; swap; · iassumption
      ipureintro
      first
      | with_reducible rfl
      | sl_unfold_run_names
        rw [View.read_writes_eq_canon _ _ _ fun y => ⟨_, List.mem_cons_self, View.mem_set_unit_zero hz1 inb_S2048x64_S2048x64_0_0 y⟩,
          View.canon_cons_unit_zero hz1]
        simp only [View.readAt_eq_ld, View.ld_unit_zero (S := S1x2048) hz1, View.ld_unit_zero (S := S2000x64) hz1,
          View.ld_unit_zero (S := S2048x64) hz1, View.readCov_unit_zero (S := S2048x64) _ hz1]

-- What the accumulator holds after point n: the point's update of zero at the start of a row, of what the point before left elsewhere.
def acc1 (c : Dev nD) (n : ℕ) (hn : n < cfg1.N) : Vec F S2048x64 .f32 :=
  k1_pay2 (grid1.coords ⟨n, hn⟩) (iblk1 V c 0 ⟨n, hn⟩) (iblk1 V c 1 ⟨n, hn⟩) (iblk1 V c 2 ⟨n, hn⟩)
    (if h : n % 50 = 0 then k1_pay1 else acc1 c (n - 1) (by omega))
termination_by n
decreasing_by omega

theorem acc1_first (c : Dev nD) (t : Fin cfg1.N) (h : t.val % 50 = 0) :
    acc1 V c t.val t.isLt = k1_pay2 (grid1.coords t) (iblk1 V c 0 t) (iblk1 V c 1 t) (iblk1 V c 2 t) k1_pay1 := by
  rw [acc1, dif_pos h]

theorem acc1_next (c : Dev nD) (t : Fin cfg1.N) (h : t.val % 50 ≠ 0) :
    acc1 V c t.val t.isLt = k1_pay2 (grid1.coords t) (iblk1 V c 0 t) (iblk1 V c 1 t) (iblk1 V c 2 t) (acc1 V c (t.val - 1) (by omega)) := by
  rw [acc1, dif_neg h]

-- After point n the accumulator is acc1 n.
def Phi1 (c : Dev nD) (n : ℕ) : sProp 𝕄 :=
  iprop(iprop((∃ d, ⌜∀ m hm, n = m + 1 → d = acc1 V c m hm⌝ ∗ owns c.tc (Memref.whole cc1_scratch0) fullShare d)
    ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := Phi1 V c t.val
  q _ := fullShare
  owed _ := 0

theorem A_eq1 (c : Dev nD) (w : Fin cfg1.W) : (dat1 V c).A w = V c (Pipeline.arrRef spec1 w) := by
  dsimp only [dat1]

theorem after1_out (c : Dev nD) (t : Fin cfg1.N) (h : t.val % 50 = 49) : (dat1 V c).after 3 t = acc1 V c t.val t.isLt := by
  dsimp only [dat1]

theorem before1 (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨?_, ?_, ?_⟩ <;> exact fun d =>
    ((dat1 V c).before_in_eq_fetched _ rfl (fun _ => rfl) (fun _ _ _ => rfl) (fun _ => rfl) t d).trans rfl

theorem leave1_3 (c : Dev nD) (t : Fin cfg1.N) (d) :
    owns c.tc (win1_3.stage (cfg1.slots t 3)) fullShare
      (if cond1_1 (grid1.coords t) then acc1 V c t.val t.isLt else (dat1 V c).before 3 t d)
      ⊢ (dat1 V c).leavesExact 3 t := by
  by_cases h : cond1_1 (grid1.coords t)
  · rw [if_pos h]; unfold Dat.leavesExact
    rw [show cfg1.idle 3 (grid1.coords t) = false from Eq.mpr (Bool.not_eq_false' _) (beq_iff_eq.mpr h)]
    exact .rfl
  · rw [if_neg h, Dat.leavesExact_idle _ 3 t (show cfg1.idle 3 (grid1.coords t) = true from Eq.mpr (Bool.not_eq_true' _) (beq_eq_false_iff_ne.mpr h))
      (Bool.eq_false_iff.mpr fun hf => h ((hcond1 t 49 (by omega)).mpr ((flush1_3 t).mp hf)))]
    iintro H; iexists d; iexact H

set_option maxHeartbeats 4800000 in
theorem sound_body1 (c : Dev nD) (t : Fin cfg1.N) :
    iprop(Phi1 V c t.val ∗ (dat1 V c).owesAt () 0
      ∗ (∃ d, owns c.tc (win1_0.stage (cfg1.slots t 0)) fullShare ((dat1 V c).before 0 t d))
      ∗ (∃ d, owns c.tc (win1_1.stage (cfg1.slots t 1)) fullShare ((dat1 V c).before 1 t d))
      ∗ (∃ d, owns c.tc (win1_2.stage (cfg1.slots t 2)) fullShare ((dat1 V c).before 2 t d))
      ∗ (∃ d, owns c.tc (win1_3.stage (cfg1.slots t 3)) fullShare ((dat1 V c).before 3 t d)))
    ⊢ wp frame (wpE (defs₀ (F := F)) Variants.none c none) Set.univ (bodyAt1 t) fun _ =>
      iprop(Phi1 V c (t.val + 1) ∗ (dat1 V c).owesAt () 0
        ∗ owns c.tc (win1_0.stage (cfg1.slots t 0)) fullShare (iblk1 V c 0 t)
        ∗ owns c.tc (win1_1.stage (cfg1.slots t 1)) fullShare (iblk1 V c 1 t)
        ∗ owns c.tc (win1_2.stage (cfg1.slots t 2)) fullShare (iblk1 V c 2 t) ∗ (dat1 V c).leavesExact 3 t) := by
  simp only [before1 V c t]
  unfold Phi1 bodyAt1
  iintro ⟨⟨⟨⟨%ds, %hs, HS⟩, HR⟩, Hg⟩, Ho, ⟨%d0, H0⟩, ⟨%d1, H1⟩, ⟨%d2, H2⟩, ⟨%d3, H3⟩⟩
  have hA : k1_pay2 (grid1.coords t) (iblk1 V c 0 t) (iblk1 V c 1 t) (iblk1 V c 2 t) (if cond1_0 (grid1.coords t) then k1_pay1 else ds)
      = acc1 V c t.val t.isLt := by
    by_cases h0 : t.val % 50 = 0
    · rw [if_pos ((hcond1 t 0 (by omega)).mpr h0), acc1_first V c t h0]
    · rw [if_neg (mt (hcond1 t 0 (by omega)).mp h0), acc1_next V c t h0,
        hs (t.val - 1) _ (by omega)]
  iapply (sound_kernel1 c (grid1.coords t) _ _ _ _ _ _ _ _ _ _
    (fun h0 h1 => by have := (hcond1 t 0 (by omega)).mp h0; have := (hcond1 t 49 (by omega)).mp h1; omega) _ _ _ _ _ Set.univ _)
  iframe H0 H1 H2 H3 HS
  iintro H0 H1 H2 H3 HS
  rw [hA]
  iframe HR Hg Ho H0 H1 H2
  isplitl [HS]
  · iexists _; iframe HS; ipureintro
    intro m hm e; cases Nat.succ.inj e; rfl
  · iapply (leave1_3 V c t d3); iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show _ ⊢ Phi1 V c 0
  unfold Pipeline.ΦA Phi1; rw [scopedRest1_split]; simp only [owns_whole]
  iintro ⟨⟨⟨%f, H⟩, HR⟩, Hg⟩
  iframe HR Hg
  iexists f; iframe H; ipureintro
  exact fun _ _ e => absurd e.symm (Nat.succ_ne_zero _)

theorem hout1 (c : Dev nD) : (dat1 V c).Φ (Fin.last cfg1.N) ⊢ Pipeline.ΦA spec1 c := by
  show Phi1 V c _ ⊢ _
  unfold Pipeline.ΦA Phi1; rw [scopedRest1_split]; simp only [owns_whole]
  iintro ⟨⟨⟨%f, -, H⟩, HR⟩, Hg⟩
  iframe HR Hg
  iexists f; iexact H

end Cert.Kernel.Tiles

end
-- ==== Proof.BitsGatherTile4.lean ====
import proofs.«414299_j48155173322928_2_alg».proof.Proof.BitsBlocks
import Idealize.ShloMosaic.Lib.Pipeline.Value
import Idealize.ShloMosaic.Lib.Tactic

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 1).val) 0#32)) 0#32) = 1#1
abbrev cond4_1 (i : grid4.Coords) : Prop := k4_cond2 i = 1#1

-- The body's test of the fast coordinate (t modulo the row length 50: no axis follows it) against k singles out the k-th point of each row.
theorem hcond4 (t : Fin cfg4.N) (k : ℕ) (hk : k < 50) :
    Scalar.cmpi .ne (Scalar.extui (Scalar.cmpi .eq (BitVec.ofNat 32 (grid4.coords t 1).val) (BitVec.ofNat 32 k))) 0#32 = 1#1
      ↔ t.val % 50 = k := by
  rw [Scalar.guard_iff, Scalar.cmpi, IntOp.cmpi_eq, ← BitVec.toNat_inj, BitVec.toNat_ofNat, BitVec.toNat_ofNat,
    show (grid4.coords t 1).val = t.val / grid4.stride 1 % 50 from rfl, (by decide : grid4.stride 1 = 1)]
  omega

theorem hz4 : (![0, 0] : Fin 2 → ℕ) = fun _ => 0 := by funext a; fin_cases a <;> rfl

set_option maxHeartbeats 4000000 in
-- One run of the body: the accumulator becomes the point's update of zero (start of a row) or of its old value; at the end of a row the result is the new accumulator.
theorem sound_kernel4 (c : Dev nD) (i : grid4.Coords)
    (mD : Memref sig .tc .vmem S1x2048 .i32) (hD : mD.IsWhole) (mW : Memref sig .tc .vmem S1x2048 .f32) (hW : mW.IsWhole)
    (mX : Memref sig .tc .vmem S2000x40 .f32) (hX : mX.IsWhole) (mO : Memref sig .tc .vmem S2048x40 .f32) (hO : mO.IsWhole)
    (mS : Memref sig .tc .vmem S2048x40 .f32) (hS : mS.IsWhole) (h : cond4_0 i → ¬cond4_1 i)
    (x0 : Vec F S1x2048 .i32) (x1 : Vec F S1x2048 .f32) (x2 : Vec F S2000x40 .f32) (xo xs : Vec F S2048x40 .f32)
    (E : Set ℕ) (K : PUnit → sProp 𝕄) :
    iprop(owns c.tc mD fullShare x0 ∗ owns c.tc mW fullShare x1 ∗ owns c.tc mX fullShare x2
        ∗ owns c.tc mO fullShare xo ∗ owns c.tc mS fullShare xs
        ∗ (owns c.tc mD fullShare x0 -∗ owns c.tc mW fullShare x1 -∗ owns c.tc mX fullShare x2
            -∗ owns c.tc mO fullShare (if cond4_1 i then k4_pay2 i x0 x1 x2 (if cond4_0 i then k4_pay1 else xs) else xo)
            -∗ owns c.tc mS fullShare (k4_pay2 i x0 x1 x2 (if cond4_0 i then k4_pay1 else xs)) -∗ K ⟨⟩))
      ⊢ wp frame (wpE (defs₀ (F := F)) Variants.none c none) E (cc4__gather_kernel i mD hD mW hW mX hX mO hO mS hS) K := by
  by_cases hc0 : cond4_0 i <;> by_cases hc1 : cond4_1 i
  · exact absurd hc1 (h hc0)
  all_goals
    first | rw [if_pos hc0] | rw [if_neg hc0]
    first | rw [if_pos hc1] | rw [if_neg hc1]
    simp only [cc4__gather_kernel_eq_skeleton]; unfold cc4__gather_kernel_skel owns
    iintro ⟨⟨%f0, %e0, H0⟩, ⟨%f1, %e1, H1⟩, ⟨%f2, %e2, H2⟩, ⟨%f3, %e3, H3⟩, ⟨%fs, %es, HS⟩, Hk⟩
    subst e0 e1 e2 e3 es
    sl_exec
    sl_step
    iapply Hk $$ [H0] [H1] [H2] [H3] [HS]
    all_goals
      iexists _; isplitr; swap; · iassumption
      ipureintro
      first
      | with_reducible rfl
      | sl_unfold_run_names
        rw [View.read_writes_eq_canon _ _ _ fun y => ⟨_, List.mem_cons_self, View.mem_set_unit_zero hz4 inb_S2048x40_S2048x40_0_0 y⟩,
          View.canon_cons_unit_zero hz4]
        simp only [View.readAt_eq_ld, View.ld_unit_zero (S := S1x2048) hz4, View.ld_unit_zero (S := S2000x40) hz4,
          View.ld_unit_zero (S := S2048x40) hz4, View.readCov_unit_zero (S := S2048x40) _ hz4]

-- What the accumulator holds after point n: the point's update of zero at the start of a row, of what the point before left elsewhere.
def acc4 (c : Dev nD) (n : ℕ) (hn : n < cfg4.N) : Vec F S2048x40 .f32 :=
  k4_pay2 (grid4.coords ⟨n, hn⟩) (iblk4 V c 0 ⟨n, hn⟩) (iblk4 V c 1 ⟨n, hn⟩) (iblk4 V c 2 ⟨n, hn⟩)
    (if h : n % 50 = 0 then k4_pay1 else acc4 c (n - 1) (by omega))
termination_by n
decreasing_by omega

theorem acc4_first (c : Dev nD) (t : Fin cfg4.N) (h : t.val % 50 = 0) :
    acc4 V c t.val t.isLt = k4_pay2 (grid4.coords t) (iblk4 V c 0 t) (iblk4 V c 1 t) (iblk4 V c 2 t) k4_pay1 := by
  rw [acc4, dif_pos h]

theorem acc4_next (c : Dev nD) (t : Fin cfg4.N) (h : t.val % 50 ≠ 0) :
    acc4 V c t.val t.isLt = k4_pay2 (grid4.coords t) (iblk4 V c 0 t) (iblk4 V c 1 t) (iblk4 V c 2 t) (acc4 V c (t.val - 1) (by omega)) := by
  rw [acc4, dif_neg h]

-- After point n the accumulator is acc4 n.
def Phi4 (c : Dev nD) (n : ℕ) : sProp 𝕄 :=
  iprop(iprop((∃ d, ⌜∀ m hm, n = m + 1 → d = acc4 V c m hm⌝ ∗ owns c.tc (Memref.whole cc4_scratch0) fullShare d)
    ∗ Pipeline.scopedRestBut (Ix := Unit) (Name := ℕ) (U := UR sig nD τ) (Lvl := ℕ) (Val := Elt F) spec4 c [cc4_scratch0]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ t := Phi4 V c t.val
  q _ := fullShare
  owed _ := 0

theorem A_eq4 (c : Dev nD) (w : Fin cfg4.W) : (dat4 V c).A w = V c (Pipeline.arrRef spec4 w) := by
  dsimp only [dat4]

theorem after4_out (c : Dev nD) (t : Fin cfg4.N) (h : t.val % 50 = 49) : (dat4 V c).after 3 t = acc4 V c t.val t.isLt := by
  dsimp only [dat4]

theorem before4 (c : Dev nD) (t : Fin cfg4.N) : (∀ d, (dat4 V c).before 0 t d = iblk4 V c 0 t)
    ∧ (∀ d, (dat4 V c).before 1 t d = iblk4 V c 1 t) ∧ ∀ d, (dat4 V c).before 2 t d = iblk4 V c 2 t := by
  refine ⟨?_, ?_, ?_⟩ <;> exact fun d =>
    ((dat4 V c).before_in_eq_fetched _ rfl (fun _ => rfl) (fun _ _ _ => rfl) (fun _ => rfl) t d).trans rfl

theorem leave4_3 (c : Dev nD) (t : Fin cfg4.N) (d) :
    owns c.tc (win4_3.stage (cfg4.slots t 3)) fullShare
      (if cond4_1 (grid4.coords t) then acc4 V c t.val t.isLt else (dat4 V c).before 3 t d)
      ⊢ (dat4 V c).leavesExact 3 t := by
  by_cases h : cond4_1 (grid4.coords t)
  · rw [if_pos h]; unfold Dat.leavesExact
    rw [show cfg4.idle 3 (grid4.coords t) = false from Eq.mpr (Bool.not_eq_false' _) (beq_iff_eq.mpr h)]
    exact .rfl
  · rw [if_neg h, Dat.leavesExact_idle _ 3 t (show cfg4.idle 3 (grid4.coords t) = true from Eq.mpr (Bool.not_eq_true' _) (beq_eq_false_iff_ne.mpr h))
      (Bool.eq_false_iff.mpr fun hf => h ((hcond4 t 49 (by omega)).mpr ((flush4_3 t).mp hf)))]
    iintro H; iexists d; iexact H

set_option maxHeartbeats 4800000 in
theorem sound_body4 (c : Dev nD) (t : Fin cfg4.N) :
    iprop(Phi4 V c t.val ∗ (dat4 V c).owesAt () 0
      ∗ (∃ d, owns c.tc (win4_0.stage (cfg4.slots t 0)) fullShare ((dat4 V c).before 0 t d))
      ∗ (∃ d, owns c.tc (win4_1.stage (cfg4.slots t 1)) fullShare ((dat4 V c).before 1 t d))
      ∗ (∃ d, owns c.tc (win4_2.stage (cfg4.slots t 2)) fullShare ((dat4 V c).before 2 t d))
      ∗ (∃ d, owns c.tc (win4_3.stage (cfg4.slots t 3)) fullShare ((dat4 V c).before 3 t d)))
    ⊢ wp frame (wpE (defs₀ (F := F)) Variants.none c none) Set.univ (bodyAt4 t) fun _ =>
      iprop(Phi4 V c (t.val + 1) ∗ (dat4 V c).owesAt () 0
        ∗ owns c.tc (win4_0.stage (cfg4.slots t 0)) fullShare (iblk4 V c 0 t)
        ∗ owns c.tc (win4_1.stage (cfg4.slots t 1)) fullShare (iblk4 V c 1 t)
        ∗ owns c.tc (win4_2.stage (cfg4.slots t 2)) fullShare (iblk4 V c 2 t) ∗ (dat4 V c).leavesExact 3 t) := by
  simp only [before4 V c t]
  unfold Phi4 bodyAt4
  iintro ⟨⟨⟨⟨%ds, %hs, HS⟩, HR⟩, Hg⟩, Ho, ⟨%d0, H0⟩, ⟨%d1, H1⟩, ⟨%d2, H2⟩, ⟨%d3, H3⟩⟩
  have hA : k4_pay2 (grid4.coords t) (iblk4 V c 0 t) (iblk4 V c 1 t) (iblk4 V c 2 t) (if cond4_0 (grid4.coords t) then k4_pay1 else ds)
      = acc4 V c t.val t.isLt := by
    by_cases h0 : t.val % 50 = 0
    · rw [if_pos ((hcond4 t 0 (by omega)).mpr h0), acc4_first V c t h0]
    · rw [if_neg (mt (hcond4 t 0 (by omega)).mp h0), acc4_next V c t h0,
        hs (t.val - 1) _ (by omega)]
  iapply (sound_kernel4 c (grid4.coords t) _ _ _ _ _ _ _ _ _ _
    (fun h0 h1 => by have := (hcond4 t 0 (by omega)).mp h0; have := (hcond4 t 49 (by omega)).mp h1; omega) _ _ _ _ _ Set.univ _)
  iframe H0 H1 H2 H3 HS
  iintro H0 H1 H2 H3 HS
  rw [hA]
  iframe HR Hg Ho H0 H1 H2
  isplitl [HS]
  · iexists _; iframe HS; ipureintro
    intro m hm e; cases Nat.succ.inj e; rfl
  · iapply (leave4_3 V c t d3); iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  show _ ⊢ Phi4 V c 0
  unfold Pipeline.ΦA Phi4; rw [scopedRest4_split]; simp only [owns_whole]
  iintro ⟨⟨⟨%f, H⟩, HR⟩, Hg⟩
  iframe HR Hg
  iexists f; iframe H; ipureintro
  exact fun _ _ e => absurd e.symm (Nat.succ_ne_zero _)

theorem hout4 (c : Dev nD) : (dat4 V c).Φ (Fin.last cfg4.N) ⊢ Pipeline.ΦA spec4 c := by
  show Phi4 V c _ ⊢ _
  unfold Pipeline.ΦA Phi4; rw [scopedRest4_split]; simp only [owns_whole]
  iintro ⟨⟨⟨%f, -, H⟩, HR⟩, Hg⟩
  iframe HR Hg
  iexists f; iexact H

end Cert.Kernel.Tiles

end
-- ==== Proof.BitsScatterTile2.lean ====
import proofs.«414299_j48155173322928_2_alg».proof.Proof.BitsBlocks
import Idealize.ShloMosaic.Lib.Pipeline.Value
import Idealize.ShloMosaic.Lib.Tactic

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop :=
  (Scalar.cmpi .ne (Scalar.extui (Scalar.cmpi .eq (BitVec.ofNat 32 (i 1).val) 0#32)) 0#32) = 1#1
abbrev cond2_1 (i : grid2.Coords) : Prop := k2_cond2 i = 1#1

-- The body's test of the fast coordinate (t modulo the row length 782: no axis follows it) against k singles out the k-th point of each row.
theorem hcond2 (t : Fin cfg2.N) (k : ℕ) (hk : k < 782) :
    Scalar.cmpi .ne (Scalar.extui (Scalar.cmpi .eq (BitVec.ofNat 32 (grid2.coords t 1).val) (BitVec.ofNat 32 k))) 0#32 = 1#1
      ↔ t.val % 782 = k := by
  rw [Scalar.guard_iff, Scalar.cmpi, IntOp.cmpi_eq, ← BitVec.toNat_inj, BitVec.toNat_ofNat, BitVec.toNat_ofNat,
    show (grid2.coords t 1).val = t.val / grid2.stride 1 % 782 from rfl, (by decide : grid2.stride 1 = 1)]
  omega

theorem zero_off : (![0, 0] : Fin 2 → ℕ) = fun _ => 0 := by funext a; fin_cases a <;> rfl

set_option maxHeartbeats 1000000 in
-- One run of the body: the accumulator becomes the point's update of zero (start of a row) or of its old value; at the end of a row the result is the epilogue of the new accumulator.
theorem sound_kernel2 (c : Dev nD) (i : grid2.Coords)
    (mD : Memref sig .tc .vmem S1x2048 .i32) (hD : mD.IsWhole) (mM : Memref sig .tc .vmem S2048x64 .f32) (hM : mM.IsWhole)
    (mB : Memref sig .tc .vmem S1x64 .f32) (hB : mB.IsWhole) (mO : Memref sig .tc .vmem S2000x64 .f32) (hO : mO.IsWhole)
    (mS : Memref sig .tc .vmem S2000x64 .f32) (hS : mS.IsWhole) (h : cond2_0 i → ¬cond2_1 i)
    (x0 : Vec F S1x2048 .i32) (x1 : Vec F S2048x64 .f32) (x2 : Vec F S1x64 .f32) (xo xs : Vec F S2000x64 .f32)
    (E : Set ℕ) (K : PUnit → sProp 𝕄) :
    iprop(owns c.tc mD fullShare x0 ∗ owns c.tc mM fullShare x1 ∗ owns c.tc mB fullShare x2
        ∗ owns c.tc mO fullShare xo ∗ owns c.tc mS fullShare xs
        ∗ (owns c.tc mD fullShare x0 -∗ owns c.tc mM fullShare x1 -∗ owns c.tc mB fullShare x2
            -∗ owns c.tc mO fullShare
                (if cond2_1 i then k2_pay3 (k2_pay2 i x0 x1 (if cond2_0 i then k2_pay1 else xs)) x2 else xo)
            -∗ owns c.tc mS fullShare (k2_pay2 i x0 x1 (if cond2_0 i then k2_pay1 else xs)) -∗ K ⟨⟩))
      ⊢ wp frame (wpE (defs₀ (F := F)) Variants.none c none) E (cc2__scatter_kernel i mD hD mM hM mB hB mO hO mS hS) K := by
  by_cases hc0 : cond2_0 i <;> by_cases hc1 : cond2_1 i
  · exact absurd hc1 (h hc0)
  all_goals
    first | rw [if_pos hc0] | rw [if_neg hc0]
    first | rw [if_pos hc1] | rw [if_neg hc1]
    simp only [cc2__scatter_kernel_eq_skeleton]; unfold cc2__scatter_kernel_skel owns
    iintro ⟨⟨%f0, %e0, H0⟩, ⟨%f1, %e1, H1⟩, ⟨%f2, %e2, H2⟩, ⟨%f3, %e3, H3⟩, ⟨%fs, %es, HS⟩, Hk⟩
    subst e0 e1 e2 e3 es
    sl_exec
    sl_step
    iapply Hk $$ [H0] [H1] [H2] [H3] [HS]
    all_goals
      iexists _; isplitr; swap; · iassumption
      ipureintro
      first
      | with_reducible rfl
      | sl_unfold_run_names
        rw [View.read_writes_eq_canon _ _ _ fun y => ⟨_, List.mem_cons_self, View.mem_set_unit_zero zero_off inb_S2000x64_S2000x64_0_0 y⟩,
          View.canon_cons_unit_zero zero_off]
        simp only [View.readAt_eq_ld, View.ld_unit_zero (S := S1x2048) zero_off, View.ld_unit_zero (S := S2048x64) zero_off,
          View.ld_unit_zero (S := S1x64) zero_off, View.ld_unit_zero (S := S2000x64) zero_off,
          View.readCov_unit_zero (S := S2000x64) _ zero_off]

-- What the accumulator holds after point n: the point's update of zero at the start of a row, of what the point before left elsewhere.
def acc2 (c : Dev nD) (n : ℕ) (hn : n < cfg2.N) : Vec F S2000x64 .f32 :=
  k2_pay2 (grid2.coords ⟨n, hn⟩) (iblk2 V c 0 ⟨n, hn⟩) (iblk2 V c 1 ⟨n, hn⟩)
    (if h : n % 782 = 0 then k2_pay1 else acc2 c (n - 1) (by omega))
termination_by n
decreasing_by omega

theorem acc2_first (c : Dev nD) (t : Fin cfg2.N) (h : t.val % 782 = 0) :
    acc2 V c t.val t.isLt = k2_pay2 (grid2.coords t) (iblk2 V c 0 t) (iblk2 V c 1 t) k2_pay1 := by
  rw [acc2, dif_pos h]

theorem acc2_next (c : Dev nD) (t : Fin cfg2.N) (h : t.val % 782 ≠ 0) :
    acc2 V c t.val t.isLt = k2_pay2 (grid2.coords t) (iblk2 V c 0 t) (iblk2 V c 1 t)
      (acc2 V c (t.val - 1) (Nat.lt_of_le_of_lt (Nat.sub_le _ _) t.isLt)) := by
  rw [acc2, dif_neg h]

-- After point n the accumulator is acc2 n.
def Phi2 (c : Dev nD) (n : ℕ) : sProp 𝕄 :=
  iprop(iprop((∃ d, ⌜∀ m hm, n = m + 1 → d = acc2 V c m hm⌝ ∗ owns c.tc (Memref.whole cc2_scratch0) fullShare d)
    ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val
  q _ := fullShare
  owed _ := 0

theorem A_eq2 (c : Dev nD) (w : Fin cfg2.W) : (dat2 V c).A w = V c (Pipeline.arrRef spec2 w) := by
  dsimp only [dat2]

theorem after2_out (c : Dev nD) (t : Fin cfg2.N) (h : t.val % 782 = 781) :
    (dat2 V c).after 3 t = k2_pay3 (acc2 V c t.val t.isLt) (iblk2 V c 2 t) := by dsimp only [dat2]

theorem before2 (c : Dev nD) (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨?_, ?_, ?_⟩ <;> exact fun d =>
    ((dat2 V c).before_in_eq_fetched _ rfl (fun _ => rfl) (fun _ _ _ => rfl) (fun _ => rfl) t d).trans rfl

theorem leave2_3 (c : Dev nD) (t : Fin cfg2.N) (d) :
    owns c.tc (win2_3.stage (cfg2.slots t 3)) fullShare
      (if cond2_1 (grid2.coords t) then k2_pay3 (acc2 V c t.val t.isLt) (iblk2 V c 2 t) else (dat2 V c).before 3 t d)
      ⊢ (dat2 V c).leavesExact 3 t := by
  by_cases h : cond2_1 (grid2.coords t)
  · rw [if_pos h]; unfold Dat.leavesExact
    rw [show cfg2.idle 3 (grid2.coords t) = false from Eq.mpr (Bool.not_eq_false' _) (beq_iff_eq.mpr h)]
    exact .rfl
  · rw [if_neg h, Dat.leavesExact_idle _ 3 t (show cfg2.idle 3 (grid2.coords t) = true from Eq.mpr (Bool.not_eq_true' _) (beq_eq_false_iff_ne.mpr h))
      (Bool.eq_false_iff.mpr fun hf => h ((hcond2 t 781 (by omega)).mpr ((flush2_3 t).mp hf)))]
    iintro H; iexists d; iexact H

theorem sound_body2 (c : Dev nD) (t : Fin cfg2.N) :
    iprop(Phi2 V c t.val ∗ (dat2 V c).owesAt () 0
      ∗ (∃ d, owns c.tc (win2_0.stage (cfg2.slots t 0)) fullShare ((dat2 V c).before 0 t d))
      ∗ (∃ d, owns c.tc (win2_1.stage (cfg2.slots t 1)) fullShare ((dat2 V c).before 1 t d))
      ∗ (∃ d, owns c.tc (win2_2.stage (cfg2.slots t 2)) fullShare ((dat2 V c).before 2 t d))
      ∗ (∃ d, owns c.tc (win2_3.stage (cfg2.slots t 3)) fullShare ((dat2 V c).before 3 t d)))
    ⊢ wp frame (wpE (defs₀ (F := F)) Variants.none c none) Set.univ (bodyAt2 t) fun _ =>
      iprop(Phi2 V c (t.val + 1) ∗ (dat2 V c).owesAt () 0
        ∗ owns c.tc (win2_0.stage (cfg2.slots t 0)) fullShare (iblk2 V c 0 t)
        ∗ owns c.tc (win2_1.stage (cfg2.slots t 1)) fullShare (iblk2 V c 1 t)
        ∗ owns c.tc (win2_2.stage (cfg2.slots t 2)) fullShare (iblk2 V c 2 t) ∗ (dat2 V c).leavesExact 3 t) := by
  simp only [before2 V c t]
  unfold Phi2 bodyAt2
  iintro ⟨⟨⟨⟨%ds, %hs, HS⟩, HR⟩, Hg⟩, Ho, ⟨%d0, H0⟩, ⟨%d1, H1⟩, ⟨%d2, H2⟩, ⟨%d3, H3⟩⟩
  have hA : k2_pay2 (grid2.coords t) (iblk2 V c 0 t) (iblk2 V c 1 t) (if cond2_0 (grid2.coords t) then k2_pay1 else ds)
      = acc2 V c t.val t.isLt := by
    by_cases h0 : t.val % 782 = 0
    · rw [if_pos ((hcond2 t 0 (by omega)).mpr h0), acc2_first V c t h0]
    · rw [if_neg (mt (hcond2 t 0 (by omega)).mp h0), acc2_next V c t h0,
        hs (t.val - 1) _ (by omega)]
  iapply (sound_kernel2 c (grid2.coords t) _ _ _ _ _ _ _ _ _ _
    (fun h0 h1 => by have := (hcond2 t 0 (by omega)).mp h0; have := (hcond2 t 781 (by omega)).mp h1; omega) _ _ _ _ _ Set.univ _)
  iframe H0 H1 H2 H3 HS
  iintro H0 H1 H2 H3 HS
  rw [hA]
  iframe HR Hg Ho H0 H1 H2
  isplitl [HS]
  · iexists _; iframe HS; ipureintro
    intro m hm e; cases Nat.succ.inj e; rfl
  · iapply (leave2_3 V c t d3); iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  show _ ⊢ Phi2 V c 0
  unfold Pipeline.ΦA Phi2; rw [scopedRest2_split]; simp only [owns_whole]
  iintro ⟨⟨⟨%f, H⟩, HR⟩, Hg⟩
  iframe HR Hg
  iexists f; iframe H; ipureintro
  exact fun _ _ e => absurd e.symm (Nat.succ_ne_zero _)

theorem hout2 (c : Dev nD) : (dat2 V c).Φ (Fin.last cfg2.N) ⊢ Pipeline.ΦA spec2 c := by
  show Phi2 V c _ ⊢ _
  unfold Pipeline.ΦA Phi2; rw [scopedRest2_split]; simp only [owns_whole]
  iintro ⟨⟨⟨%f, -, H⟩, HR⟩, Hg⟩
  iframe HR Hg
  iexists f; iexact H

end Cert.Kernel.Tiles

end
-- ==== Proof.BitsScatterTile5.lean ====
import proofs.«414299_j48155173322928_2_alg».proof.Proof.BitsBlocks
import Idealize.ShloMosaic.Lib.Pipeline.Value
import Idealize.ShloMosaic.Lib.Tactic

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond5_0 (i : grid5.Coords) : Prop :=
  (Scalar.cmpi .ne (Scalar.extui (Scalar.cmpi .eq (BitVec.ofNat 32 (i 1).val) 0#32)) 0#32) = 1#1
abbrev cond5_1 (i : grid5.Coords) : Prop := k5_cond2 i = 1#1

-- The body's test of the fast coordinate (t modulo the row length 782: no axis follows it) against k singles out the k-th point of each row.
theorem hcond5 (t : Fin cfg5.N) (k : ℕ) (hk : k < 782) :
    Scalar.cmpi .ne (Scalar.extui (Scalar.cmpi .eq (BitVec.ofNat 32 (grid5.coords t 1).val) (BitVec.ofNat 32 k))) 0#32 = 1#1
      ↔ t.val % 782 = k := by
  rw [Scalar.guard_iff, Scalar.cmpi, IntOp.cmpi_eq, ← BitVec.toNat_inj, BitVec.toNat_ofNat, BitVec.toNat_ofNat,
    show (grid5.coords t 1).val = t.val / grid5.stride 1 % 782 from rfl, (by decide : grid5.stride 1 = 1)]
  omega

theorem zero_off : (![0, 0] : Fin 2 → ℕ) = fun _ => 0 := by funext a; fin_cases a <;> rfl

set_option maxHeartbeats 1000000 in
-- One run of the body: the accumulator becomes the point's update of zero (start of a row) or of its old value; at the end of a row the result is the epilogue of the new accumulator.
theorem sound_kernel5 (c : Dev nD) (i : grid5.Coords)
    (mD : Memref sig .tc .vmem S1x2048 .i32) (hD : mD.IsWhole) (mM : Memref sig .tc .vmem S2048x40 .f32) (hM : mM.IsWhole)
    (mB : Memref sig .tc .vmem S1x40 .f32) (hB : mB.IsWhole) (mO : Memref sig .tc .vmem S2000x40 .f32) (hO : mO.IsWhole)
    (mS : Memref sig .tc .vmem S2000x40 .f32) (hS : mS.IsWhole) (h : cond5_0 i → ¬cond5_1 i)
    (x0 : Vec F S1x2048 .i32) (x1 : Vec F S2048x40 .f32) (x2 : Vec F S1x40 .f32) (xo xs : Vec F S2000x40 .f32)
    (E : Set ℕ) (K : PUnit → sProp 𝕄) :
    iprop(owns c.tc mD fullShare x0 ∗ owns c.tc mM fullShare x1 ∗ owns c.tc mB fullShare x2
        ∗ owns c.tc mO fullShare xo ∗ owns c.tc mS fullShare xs
        ∗ (owns c.tc mD fullShare x0 -∗ owns c.tc mM fullShare x1 -∗ owns c.tc mB fullShare x2
            -∗ owns c.tc mO fullShare
                (if cond5_1 i then k5_pay3 (k5_pay2 i x0 x1 (if cond5_0 i then k5_pay1 else xs)) x2 else xo)
            -∗ owns c.tc mS fullShare (k5_pay2 i x0 x1 (if cond5_0 i then k5_pay1 else xs)) -∗ K ⟨⟩))
      ⊢ wp frame (wpE (defs₀ (F := F)) Variants.none c none) E (cc5__scatter_kernel i mD hD mM hM mB hB mO hO mS hS) K := by
  by_cases hc0 : cond5_0 i <;> by_cases hc1 : cond5_1 i
  · exact absurd hc1 (h hc0)
  all_goals
    first | rw [if_pos hc0] | rw [if_neg hc0]
    first | rw [if_pos hc1] | rw [if_neg hc1]
    simp only [cc5__scatter_kernel_eq_skeleton]; unfold cc5__scatter_kernel_skel owns
    iintro ⟨⟨%f0, %e0, H0⟩, ⟨%f1, %e1, H1⟩, ⟨%f2, %e2, H2⟩, ⟨%f3, %e3, H3⟩, ⟨%fs, %es, HS⟩, Hk⟩
    subst e0 e1 e2 e3 es
    sl_exec
    sl_step
    iapply Hk $$ [H0] [H1] [H2] [H3] [HS]
    all_goals
      iexists _; isplitr; swap; · iassumption
      ipureintro
      first
      | with_reducible rfl
      | sl_unfold_run_names
        rw [View.read_writes_eq_canon _ _ _ fun y => ⟨_, List.mem_cons_self, View.mem_set_unit_zero zero_off inb_S2000x40_S2000x40_0_0 y⟩,
          View.canon_cons_unit_zero zero_off]
        simp only [View.readAt_eq_ld, View.ld_unit_zero (S := S1x2048) zero_off, View.ld_unit_zero (S := S2048x40) zero_off,
          View.ld_unit_zero (S := S1x40) zero_off, View.ld_unit_zero (S := S2000x40) zero_off,
          View.readCov_unit_zero (S := S2000x40) _ zero_off]

-- What the accumulator holds after point n: the point's update of zero at the start of a row, of what the point before left elsewhere.
def acc5 (c : Dev nD) (n : ℕ) (hn : n < cfg5.N) : Vec F S2000x40 .f32 :=
  k5_pay2 (grid5.coords ⟨n, hn⟩) (iblk5 V c 0 ⟨n, hn⟩) (iblk5 V c 1 ⟨n, hn⟩)
    (if h : n % 782 = 0 then k5_pay1 else acc5 c (n - 1) (by omega))
termination_by n
decreasing_by omega

theorem acc5_first (c : Dev nD) (t : Fin cfg5.N) (h : t.val % 782 = 0) :
    acc5 V c t.val t.isLt = k5_pay2 (grid5.coords t) (iblk5 V c 0 t) (iblk5 V c 1 t) k5_pay1 := by
  rw [acc5, dif_pos h]

theorem acc5_next (c : Dev nD) (t : Fin cfg5.N) (h : t.val % 782 ≠ 0) :
    acc5 V c t.val t.isLt = k5_pay2 (grid5.coords t) (iblk5 V c 0 t) (iblk5 V c 1 t)
      (acc5 V c (t.val - 1) (Nat.lt_of_le_of_lt (Nat.sub_le _ _) t.isLt)) := by
  rw [acc5, dif_neg h]

-- After point n the accumulator is acc5 n.
def Phi5 (c : Dev nD) (n : ℕ) : sProp 𝕄 :=
  iprop(iprop((∃ d, ⌜∀ m hm, n = m + 1 → d = acc5 V c m hm⌝ ∗ owns c.tc (Memref.whole cc5_scratch0) fullShare d)
    ∗ Pipeline.scopedRestBut (Ix := Unit) (Name := ℕ) (U := UR sig nD τ) (Lvl := ℕ) (Val := Elt F) spec5 c [cc5_scratch0]) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := Phi5 V c t.val
  q _ := fullShare
  owed _ := 0

theorem A_eq5 (c : Dev nD) (w : Fin cfg5.W) : (dat5 V c).A w = V c (Pipeline.arrRef spec5 w) := by
  dsimp only [dat5]

theorem after5_out (c : Dev nD) (t : Fin cfg5.N) (h : t.val % 782 = 781) :
    (dat5 V c).after 3 t = k5_pay3 (acc5 V c t.val t.isLt) (iblk5 V c 2 t) := by dsimp only [dat5]

theorem before5 (c : Dev nD) (t : Fin cfg5.N) : (∀ d, (dat5 V c).before 0 t d = iblk5 V c 0 t)
    ∧ (∀ d, (dat5 V c).before 1 t d = iblk5 V c 1 t) ∧ ∀ d, (dat5 V c).before 2 t d = iblk5 V c 2 t := by
  refine ⟨?_, ?_, ?_⟩ <;> exact fun d =>
    ((dat5 V c).before_in_eq_fetched _ rfl (fun _ => rfl) (fun _ _ _ => rfl) (fun _ => rfl) t d).trans rfl

theorem leave5_3 (c : Dev nD) (t : Fin cfg5.N) (d) :
    owns c.tc (win5_3.stage (cfg5.slots t 3)) fullShare
      (if cond5_1 (grid5.coords t) then k5_pay3 (acc5 V c t.val t.isLt) (iblk5 V c 2 t) else (dat5 V c).before 3 t d)
      ⊢ (dat5 V c).leavesExact 3 t := by
  by_cases h : cond5_1 (grid5.coords t)
  · rw [if_pos h]; unfold Dat.leavesExact
    rw [show cfg5.idle 3 (grid5.coords t) = false from Eq.mpr (Bool.not_eq_false' _) (beq_iff_eq.mpr h)]
    exact .rfl
  · rw [if_neg h, Dat.leavesExact_idle _ 3 t (show cfg5.idle 3 (grid5.coords t) = true from Eq.mpr (Bool.not_eq_true' _) (beq_eq_false_iff_ne.mpr h))
      (Bool.eq_false_iff.mpr fun hf => h ((hcond5 t 781 (by omega)).mpr ((flush5_3 t).mp hf)))]
    iintro H; iexists d; iexact H

theorem sound_body5 (c : Dev nD) (t : Fin cfg5.N) :
    iprop(Phi5 V c t.val ∗ (dat5 V c).owesAt () 0
      ∗ (∃ d, owns c.tc (win5_0.stage (cfg5.slots t 0)) fullShare ((dat5 V c).before 0 t d))
      ∗ (∃ d, owns c.tc (win5_1.stage (cfg5.slots t 1)) fullShare ((dat5 V c).before 1 t d))
      ∗ (∃ d, owns c.tc (win5_2.stage (cfg5.slots t 2)) fullShare ((dat5 V c).before 2 t d))
      ∗ (∃ d, owns c.tc (win5_3.stage (cfg5.slots t 3)) fullShare ((dat5 V c).before 3 t d)))
    ⊢ wp frame (wpE (defs₀ (F := F)) Variants.none c none) Set.univ (bodyAt5 t) fun _ =>
      iprop(Phi5 V c (t.val + 1) ∗ (dat5 V c).owesAt () 0
        ∗ owns c.tc (win5_0.stage (cfg5.slots t 0)) fullShare (iblk5 V c 0 t)
        ∗ owns c.tc (win5_1.stage (cfg5.slots t 1)) fullShare (iblk5 V c 1 t)
        ∗ owns c.tc (win5_2.stage (cfg5.slots t 2)) fullShare (iblk5 V c 2 t) ∗ (dat5 V c).leavesExact 3 t) := by
  simp only [before5 V c t]
  unfold Phi5 bodyAt5
  iintro ⟨⟨⟨⟨%ds, %hs, HS⟩, HR⟩, Hg⟩, Ho, ⟨%d0, H0⟩, ⟨%d1, H1⟩, ⟨%d2, H2⟩, ⟨%d3, H3⟩⟩
  have hA : k5_pay2 (grid5.coords t) (iblk5 V c 0 t) (iblk5 V c 1 t) (if cond5_0 (grid5.coords t) then k5_pay1 else ds)
      = acc5 V c t.val t.isLt := by
    by_cases h0 : t.val % 782 = 0
    · rw [if_pos ((hcond5 t 0 (by omega)).mpr h0), acc5_first V c t h0]
    · rw [if_neg (mt (hcond5 t 0 (by omega)).mp h0), acc5_next V c t h0,
        hs (t.val - 1) _ (by omega)]
  iapply (sound_kernel5 c (grid5.coords t) _ _ _ _ _ _ _ _ _ _
    (fun h0 h1 => by have := (hcond5 t 0 (by omega)).mp h0; have := (hcond5 t 781 (by omega)).mp h1; omega) _ _ _ _ _ Set.univ _)
  iframe H0 H1 H2 H3 HS
  iintro H0 H1 H2 H3 HS
  rw [hA]
  iframe HR Hg Ho H0 H1 H2
  isplitl [HS]
  · iexists _; iframe HS; ipureintro
    intro m hm e; cases Nat.succ.inj e; rfl
  · iapply (leave5_3 V c t d3); iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  show _ ⊢ Phi5 V c 0
  unfold Pipeline.ΦA Phi5; rw [scopedRest5_split]; simp only [owns_whole]
  iintro ⟨⟨⟨%f, H⟩, HR⟩, Hg⟩
  iframe HR Hg
  iexists f; iframe H; ipureintro
  exact fun _ _ e => absurd e.symm (Nat.succ_ne_zero _)

theorem hout5 (c : Dev nD) : (dat5 V c).Φ (Fin.last cfg5.N) ⊢ Pipeline.ΦA spec5 c := by
  show Phi5 V c _ ⊢ _
  unfold Pipeline.ΦA Phi5; rw [scopedRest5_split]; simp only [owns_whole]
  iintro ⟨⟨⟨%f, -, H⟩, HR⟩, Hg⟩
  iframe HR Hg
  iexists f; iexact H

end Cert.Kernel.Tiles

end
-- ==== Proof.BitsMainRun.lean ====
import proofs.«414299_j48155173322928_2_alg».proof.Proof.Gen.Kernel.Regions
import proofs.«414299_j48155173322928_2_alg».proof.Proof.BitsDenseTile0
import proofs.«414299_j48155173322928_2_alg».proof.Proof.BitsDenseTile3
import proofs.«414299_j48155173322928_2_alg».proof.Proof.BitsGatherTile1
import proofs.«414299_j48155173322928_2_alg».proof.Proof.BitsGatherTile4
import proofs.«414299_j48155173322928_2_alg».proof.Proof.BitsScatterTile2
import proofs.«414299_j48155173322928_2_alg».proof.Proof.BitsScatterTile5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev tcv (W : Dev nD → Valuation τ sig (Elt F)) : (c : Dev nD) → (b : Ref sig .tc) → Buf (Elt F) ((c : Thread nD τ).loc b) := fun c b => W c b

abbrev U7 : Dev nD → Valuation τ sig (Elt F) := fun c => Gen.V7 m c
def Y8 (c : Dev nD) : Valuation τ sig (Elt F) := Pipeline.withArrays spec0 c (U7 m c) fun w => (dat0 (tcv (U7 m)) c).arrAt w cfg0.N
abbrev U8 : Dev nD → Valuation τ sig (Elt F) := fun c => Function.update (U7 m c) main_v6 (Y8 m c main_v6)
def Y9 (c : Dev nD) : Valuation τ sig (Elt F) := Pipeline.withArrays spec1 c (U8 m c) fun w => (dat1 (tcv (U8 m)) c).arrAt w cfg1.N
abbrev U9 : Dev nD → Valuation τ sig (Elt F) := fun c => Function.update (U8 m c) main_v7 (Y9 m c main_v7)
abbrev U10 : Dev nD → Valuation τ sig (Elt F) := fun c => StableHlo.after hostOps2 (U9 m c)
def Y11 (c : Dev nD) : Valuation τ sig (Elt F) := Pipeline.withArrays spec2 c (U10 m c) fun w => (dat2 (tcv (U10 m)) c).arrAt w cfg2.N
abbrev U11 : Dev nD → Valuation τ sig (Elt F) := fun c => Function.update (U10 m c) main_v9 (Y11 m c main_v9)
def Y12 (c : Dev nD) : Valuation τ sig (Elt F) := Pipeline.withArrays spec3 c (U11 m c) fun w => (dat3 (tcv (U11 m)) c).arrAt w cfg3.N
abbrev U12 : Dev nD → Valuation τ sig (Elt F) := fun c => Function.update (U11 m c) main_v10 (Y12 m c main_v10)
def Y13 (c : Dev nD) : Valuation τ sig (Elt F) := Pipeline.withArrays spec4 c (U12 m c) fun w => (dat4 (tcv (U12 m)) c).arrAt w cfg4.N
abbrev U13 : Dev nD → Valuation τ sig (Elt F) := fun c => Function.update (U12 m c) main_v11 (Y13 m c main_v11)
abbrev U14 : Dev nD → Valuation τ sig (Elt F) := fun c => StableHlo.after hostOps5 (U13 m c)
def Y15 (c : Dev nD) : Valuation τ sig (Elt F) := Pipeline.withArrays spec5 c (U14 m c) fun w => (dat5 (tcv (U14 m)) c).arrAt w cfg5.N
abbrev U15 : Dev nD → Valuation τ sig (Elt F) := fun c => Function.update (U14 m c) main_v13 (Y15 m c main_v13)

def outs : Gen.Outs (F := F) := fun J r c => match J with
  | 8 => Y8 m c r | 9 => Y9 m c r | 11 => Y11 m c r | 12 => Y12 m c r | 13 => Y13 m c r | 15 => Y15 m c r | _ => U7 m c r

theorem V15_eq (c : Dev nD) : Gen.V15 m (outs m) c = U15 m c := rfl

def pdats : (p : Fin 6) → (c : Dev nD) → Dat τ (Elt F) Unit ℕ (UR sig nD τ) ℕ (cfgs p) c
  | ⟨0, _⟩ => fun c => dat0 (tcv (U7 m)) c
  | ⟨1, _⟩ => fun c => dat1 (tcv (U8 m)) c
  | ⟨2, _⟩ => fun c => dat2 (tcv (U10 m)) c
  | ⟨3, _⟩ => fun c => dat3 (tcv (U11 m)) c
  | ⟨4, _⟩ => fun c => dat4 (tcv (U12 m)) c
  | ⟨5, _⟩ => fun c => dat5 (tcv (U14 m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem U8_out (c : Dev nD) : U8 m c main_v6 = (dat0 (tcv (U7 m)) c).arrAt 2 cfg0.N :=
  (Function.update_self ..).trans (Pipeline.withArrays_arr spec0 launch0.win.arr_inj c _ _ 2)
theorem U8_of (c : Dev nD) (r : Ref sig .tc) (h : r ≠ main_v6) : U8 m c r = U7 m c r :=
  Function.update_of_ne (StableHlo.devRef_ne_of_ne h) _ _
theorem U9_out (c : Dev nD) : U9 m c main_v7 = (dat1 (tcv (U8 m)) c).arrAt 3 cfg1.N :=
  (Function.update_self ..).trans (Pipeline.withArrays_arr spec1 launch1.win.arr_inj c _ _ 3)
theorem U9_of (c : Dev nD) (r : Ref sig .tc) (h : r ≠ main_v7) : U9 m c r = U8 m c r :=
  Function.update_of_ne (StableHlo.devRef_ne_of_ne h) _ _
theorem U11_out (c : Dev nD) : U11 m c main_v9 = (dat2 (tcv (U10 m)) c).arrAt 3 cfg2.N :=
  (Function.update_self ..).trans (Pipeline.withArrays_arr spec2 launch2.win.arr_inj c _ _ 3)
theorem U11_of (c : Dev nD) (r : Ref sig .tc) (h : r ≠ main_v9) : U11 m c r = U10 m c r :=
  Function.update_of_ne (StableHlo.devRef_ne_of_ne h) _ _
theorem U12_out (c : Dev nD) : U12 m c main_v10 = (dat3 (tcv (U11 m)) c).arrAt 2 cfg3.N :=
  (Function.update_self ..).trans (Pipeline.withArrays_arr spec3 launch3.win.arr_inj c _ _ 2)
theorem U12_of (c : Dev nD) (r : Ref sig .tc) (h : r ≠ main_v10) : U12 m c r = U11 m c r :=
  Function.update_of_ne (StableHlo.devRef_ne_of_ne h) _ _
theorem U13_out (c : Dev nD) : U13 m c main_v11 = (dat4 (tcv (U12 m)) c).arrAt 3 cfg4.N :=
  (Function.update_self ..).trans (Pipeline.withArrays_arr spec4 launch4.win.arr_inj c _ _ 3)
theorem U13_of (c : Dev nD) (r : Ref sig .tc) (h : r ≠ main_v11) : U13 m c r = U12 m c r :=
  Function.update_of_ne (StableHlo.devRef_ne_of_ne h) _ _
theorem U15_out (c : Dev nD) : U15 m c main_v13 = (dat5 (tcv (U14 m)) c).arrAt 3 cfg5.N :=
  (Function.update_self ..).trans (Pipeline.withArrays_arr spec5 launch5.win.arr_inj c _ _ 3)
theorem U15_of (c : Dev nD) (r : Ref sig .tc) (h : r ≠ main_v13) : U15 m c r = U14 m c r :=
  Function.update_of_ne (StableHlo.devRef_ne_of_ne h) _ _

-- three facts each of the six cases of `pdats` has by its definition
theorem pdats_plain : ∀ (p : Fin 6) (c : Dev nD), (∀ w, (pdats m p c).q w = fullShare) ∧ (∀ t, (pdats m p c).owed t = 0)
    ∧ ∀ x, x ∈ (pdats m p c).recorded 0
  | 0, _ | 1, _ | 2, _ | 3, _ | 4, _ | 5, _ => ⟨fun _ => rfl, fun _ => rfl, fun _ => trivial⟩

-- one step of the run, from contents V to V': V' differs from V only at the array of window o, where it holds what the step leaves there
def seg (p : Fin 6) (lf : Pipeline.LaunchFacts (nD := nD) (τ := τ) cfgs p) (V V' : Dev nD → Valuation τ sig (Elt F))
    (o : Fin (cfgs p).W) (hi : ∀ w, w ≠ o → ((cfgs p).win w).isOut = false)
    (hA : ∀ c w, (pdats m p c).A w = tcv V c (Pipeline.arrRef (cfgs p).spec w))
    (ho : ∀ c, tcv V' c (Pipeline.arrRef (cfgs p).spec o) = (pdats m p c).arrAt o (cfgs p).N)
    (hof : ∀ c r, r ≠ Pipeline.arrRef (cfgs p).spec o → tcv V' c r = tcv V c r)
    (hb : ∀ c, BodyObligation (pdats m p c) defs₀ 𝒱₀ () Set.univ)
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg pcfgs adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m p c).2.1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (tcv V c)
  hentry c := by
    unfold Pipeline.Dat.owesAt Pipeline.owesWithin Pipeline.prefHeld
    rw [← Pipeline.unscopedBufs_held, Pipeline.ownSems0_none, (pdats_plain m p c).2.1,
      show (Finset.univ : Finset (Fin 0)) = ∅ from rfl, BI.bigSep_empty]
    iintro ⟨⟨Hub, Hp, %W, HO⟩, -, -⟩
    ihave ⟨Ha, Hr⟩ := Pipeline.arrays_of_unscopedBufs (p := p) pcfgs adm (pdats m) lf.win lf.arr_whole c
      ((pdats m p c).share_full (pdats_plain m p c).1) (tcv V c) (hA c) $$ Hub
    imodintro
    iframe Ha Hp Hr
    isplitr; · iempintro
    iexists W; iframe HO; ipureintro; exact fun x _ => Or.inl ((pdats_plain m p c).2.2 x)
  hin c := by
    refine .trans ?_ (hin c)
    unfold Pipeline.ΦA; iintro ⟨Hp, -, Hr⟩; iframe
  hout c := by
    refine (hout c).trans ?_
    rw [Pipeline.ownSems0_none]; unfold Pipeline.ΦA; iintro ⟨Hr, Hp⟩; iframe; iempintro
  hexit c := by
    unfold Pipeline.Dat.owesAt Pipeline.owesWithin R
    rw [← Pipeline.unscopedBufs_held, (pdats_plain m p c).2.1]
    iintro ⟨Ha, ⟨%W, -, HO⟩, HY, Hr⟩
    imodintro
    iframe HY
    isplitl [Ha Hr]
    · iapply Pipeline.unscopedBufs_of_arrays (p := p) pcfgs adm lf.win lf.arr_whole c (pdats m)
        ((pdats m p c).share_full (pdats_plain m p c).1) (tcv V c) (tcv V' c) _
        (fun w => if h : w = o then h ▸ (ho c).symm else
          ((pdats m p c).arrAt_in w (hi w h) _).trans <| (hA c w).trans (hof c _ fun e => h (lf.win.arr_inj e)).symm)
        fun b hb => hof c b fun e => hb (Finset.mem_image.mpr ⟨o, Finset.mem_univ _, e.symm⟩)
      iframe
    iexists W; iexact HO

def reg0 : Pipeline.RegionSeg (pcfgs (F := F)) adm (pdats m) () defs₀ 𝒱₀ L lv 0 :=
  seg m 0 launch0 (U7 m) (U8 m) 2 (by decide) (A_eq0 _) (U8_out m) (U8_of m) (body_obligation0 _) (hin0 _) (hout0 _)
def reg1 : Pipeline.RegionSeg (pcfgs (F := F)) adm (pdats m) () defs₀ 𝒱₀ L lv 1 :=
  seg m 1 launch1 (U8 m) (U9 m) 3 (by decide) (A_eq1 _) (U9_out m) (U9_of m) (body_obligation1 _) (hin1 _) (hout1 _)
def reg2 : Pipeline.RegionSeg (pcfgs (F := F)) adm (pdats m) () defs₀ 𝒱₀ L lv 2 :=
  seg m 2 launch2 (U10 m) (U11 m) 3 (by decide) (A_eq2 _) (U11_out m) (U11_of m) (body_obligation2 _) (hin2 _) (hout2 _)
def reg3 : Pipeline.RegionSeg (pcfgs (F := F)) adm (pdats m) () defs₀ 𝒱₀ L lv 3 :=
  seg m 3 launch3 (U11 m) (U12 m) 2 (by decide) (A_eq3 _) (U12_out m) (U12_of m) (body_obligation3 _) (hin3 _) (hout3 _)
def reg4 : Pipeline.RegionSeg (pcfgs (F := F)) adm (pdats m) () defs₀ 𝒱₀ L lv 4 :=
  seg m 4 launch4 (U12 m) (U13 m) 3 (by decide) (A_eq4 _) (U13_out m) (U13_of m) (body_obligation4 _) (hin4 _) (hout4 _)
def reg5 : Pipeline.RegionSeg (pcfgs (F := F)) adm (pdats m) () defs₀ 𝒱₀ L lv 5 :=
  seg m 5 launch5 (U14 m) (U15 m) 3 (by decide) (A_eq5 _) (U15_out m) (U15_of m) (body_obligation5 _) (hin5 _) (hout5 _)

end Cert.Kernel.Tiles

end
-- ==== Proof.PointsPatched.lean ====
import proofs.«414299_j48155173322928_2_alg».proof.Proof.Gen.KernelIdeal
import Idealize.ShloMosaic.Lib.Pipeline.Kit

noncomputable section

namespace Cert.KernelIdeal.Gen

open Idealize.ShloMosaic Idealize.ShloMosaic.TcCoe
open Idealize.SL Idealize.SL.Sem

variable {F : FTy → Type} [FloatOps F]

/-- Two block indices (x, 0) and (y, 0) differ exactly when x and y do. -/
private theorem pair_ne_iff (x y : Nat) : (![x, 0] : Fin 2 → Nat) ≠ ![y, 0] ↔ x ≠ y :=
  not_congr ⟨fun e => congrFun e 0, fun e => by rw [e]⟩

private theorem flush_iff {G : Pipeline.Grid} (w : Pipeline.Window sig G) (hout : w.isOut = true) (f : Nat → Nat)
    (hidx : ∀ t t' : Fin G.N, w.index t' ≠ w.index t ↔ f t'.val ≠ f t.val) (t : Fin G.N) :
    w.flush t = true ↔ (t.val + 1 = G.N ∨ (t.val + 1 < G.N ∧ f (t.val + 1) ≠ f t.val)) := by
  unfold Pipeline.Window.flush
  simp only [hout, Bool.true_and, Bool.or_eq_true, decide_eq_true_eq]
  exact or_congr Iff.rfl ⟨fun ⟨h, hne⟩ => ⟨h, (hidx t ⟨_, h⟩).1 hne⟩, fun ⟨h, hne⟩ => ⟨h, (hidx t ⟨_, h⟩).2 hne⟩⟩

/-- On the 782 × 50 grid, row-major, the output block index at point t is (t / 50, 0). -/
private theorem index1_3 (t : Fin grid1.N) : win1_3.index t = ![t.val / 50, 0] := by
  have ht : t.val < 39100 := t.isLt.trans_eq (by decide)
  show ![(BitVec.ofNat 32 (t.val / grid1.stride 0 % 782)).toNat, (0#32 : BitVec 32).toNat] = _
  rw [show grid1.stride 0 = 50 by decide, BitVec.toNat_ofNat, show t.val / 50 % 782 % 2 ^ 32 = t.val / 50 by omega]
  rfl

/-- On the 50 × 782 grid, row-major, the output block index at point t is (t / 782, 0). -/
private theorem index2_3 (t : Fin grid2.N) : win2_3.index t = ![t.val / 782, 0] := by
  have ht : t.val < 39100 := t.isLt.trans_eq (by decide)
  show ![(BitVec.ofNat 32 (t.val / grid2.stride 0 % 50)).toNat, (0#32 : BitVec 32).toNat] = _
  rw [show grid2.stride 0 = 782 by decide, BitVec.toNat_ofNat, show t.val / 782 % 50 % 2 ^ 32 = t.val / 782 by omega]
  rfl

theorem flush0_2 : ∀ t : Fin cfg0.N, (cfg0.win 2).flush t = true :=
  (by decide +kernel : ∀ t : Fin grid0.N, win0_2.flush t = true)

/-- t / 50 changes at the next point exactly when t % 50 = 49, which also holds at the last point. -/
theorem flush1_3 : ∀ t : Fin cfg1.N, (cfg1.win 3).flush t = true ↔ t.val % 50 = 49 := fun t =>
  (flush_iff win1_3 rfl (· / 50) (fun t t' => by rw [index1_3 t, index1_3 t']; exact pair_ne_iff _ _) t).trans (by
    have ht : t.val < grid1.N := t.isLt
    have hN : grid1.N = 39100 := by decide
    omega)

/-- t / 782 changes at the next point exactly when t % 782 = 781, which also holds at the last point. -/
theorem flush2_3 : ∀ t : Fin cfg2.N, (cfg2.win 3).flush t = true ↔ t.val % 782 = 781 := fun t =>
  (flush_iff win2_3 rfl (· / 782) (fun t t' => by rw [index2_3 t, index2_3 t']; exact pair_ne_iff _ _) t).trans (by
    have ht : t.val < grid2.N := t.isLt
    have hN : grid2.N = 39100 := by decide
    omega)

theorem flush3_2 : ∀ t : Fin cfg3.N, (cfg3.win 2).flush t = true :=
  (by decide +kernel : ∀ t : Fin grid3.N, win3_2.flush t = true)

theorem flush4_3 : ∀ t : Fin cfg4.N, (cfg4.win 3).flush t = true ↔ t.val % 50 = 49 := flush1_3

theorem flush5_3 : ∀ t : Fin cfg5.N, (cfg5.win 3).flush t = true ↔ t.val % 782 = 781 := flush2_3

abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev bodyAt0 (t : Fin cfg0.N) : Prog (TpuEff nD τ sig (Elt F) Λ₀ .tc) PUnit :=
  cc0__matmul_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)
abbrev st1_3 (t : Fin cfg1.N) := (cfg1.win 3).stage (cfg1.slots t 3)
abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)
abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)
abbrev bodyAt3 (t : Fin cfg3.N) : Prog (TpuEff nD τ sig (Elt F) Λ₀ .tc) PUnit :=
  cc3__matmul_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2))
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)
abbrev bodyAt4 (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)
abbrev st5_3 (t : Fin cfg5.N) := (cfg5.win 3).stage (cfg5.slots t 3)
abbrev bodyAt5 (t : Fin cfg5.N) : Prog (TpuEff nD τ sig (Elt F) Λ₀ .tc) PUnit :=
  cc5__scatter_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (Memref.whole cc5_scratch0) (Memref.isWhole_whole _)

end Cert.KernelIdeal.Gen

end
-- ==== Proof.Blocks.lean ====
import proofs.«414299_j48155173322928_2_alg».proof.Proof.Gen.KernelIdeal.Launch
import proofs.«414299_j48155173322928_2_alg».proof.Proof.Gen.KernelIdeal.Skeleton
import proofs.«414299_j48155173322928_2_alg».proof.Proof.PointsPatched

noncomputable section

namespace Cert.KernelIdeal.Tiles

open Idealize.ShloMosaic Idealize.ShloMosaic.TcCoe
open Idealize.SL Idealize.SL.Sem
open Cert.KernelIdeal Cert.KernelIdeal.Gen

variable {F : FTy → Type} [FloatOps F]
variable (V : (c : Dev nD) → (b : Ref sig .tc) → Buf (Elt F) ((c : Thread nD τ).loc b))

-- window w's block at point t of each of the six computations, read off the array as V holds it
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

end Cert.KernelIdeal.Tiles

end
-- ==== Proof.DenseTile0.lean ====
import proofs.«414299_j48155173322928_2_alg».proof.Proof.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeros0 : (![0, 0] : Fin 2 → Nat) = fun _ => 0 := funext fun a => by fin_cases a <;> rfl

abbrev r0_0 : Rect S2000x512 := Rect.unit (s := S2000x512) ![0, 0] S2000x512.size inb_S2000x512_S2000x512_0_0
abbrev r0_1 : Rect S512x64 := Rect.unit (s := S512x64) ![0, 0] S512x64.size inb_S512x64_S512x64_0_0
abbrev r0_2 : Rect S2000x64 := Rect.unit (s := S2000x64) ![0, 0] S2000x64.size inb_S2000x64_S2000x64_0_0

def out0_2 (x0 : Vec F S2000x512 .f32) (x1 : Vec F S512x64 .f32) : Vec F S2000x64 .f32 :=
  View.canon [⟨r0_2, k0_pay1 (View.ld x0 r0_0) (View.ld x1 r0_1)⟩]

theorem out0_2_eq (x0 : Vec F S2000x512 .f32) (x1 : Vec F S512x64 .f32) : out0_2 x0 x1 = k0_pay1 x0 x1 := by
  unfold out0_2
  rw [View.canon_unit_zero zeros0, View.ld_unit_zero (S := S2000x512) zeros0, View.ld_unit_zero (S := S512x64) zeros0]

theorem cover0_2 (p0 : Vec F S2000x64 .f32) (y : S2000x64.Idx) :
    ∃ pc ∈ ([⟨r0_2, p0⟩] : List (View.Piece (Elt F) S2000x64 .f32)), y ∈ pc.1.set :=
  ⟨_, List.mem_singleton_self _, View.mem_set_unit_zero zeros0 inb_S2000x64_S2000x64_0_0 y⟩

set_option maxHeartbeats 1000000 in

theorem sound_kernel0 (c : Dev nD) (E : Set ℕ) (i : grid0.Coords)
    (arg1 : Memref sig .tc .vmem S2000x512 .f32) (harg1 : arg1.IsWhole)
    (arg2 : Memref sig .tc .vmem S512x64 .f32) (harg2 : arg2.IsWhole)
    (arg3 : Memref sig .tc .vmem S2000x64 .f32) (harg3 : arg3.IsWhole)
    (x0 : Vec F S2000x512 .f32) (x1 : Vec F S512x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_in0 (c : Dev nD) (t : Fin cfg0.N) : (dat0 V c).after 0 t = iblk0 V c 0 t := by dsimp only [dat0]
theorem after0_in1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem after0_out (c : Dev nD) (t : Fin cfg0.N) : (dat0 V c).after 2 t = k0_pay1 (iblk0 V c 0 t) (iblk0 V c 1 t) :=
  (after0_2 V c t).trans (out0_2_eq _ _)

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_in0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_in1]; unfold Dat.blockOf iblk0; rw [A_eq0]; try rfl) t d).trans
    (by unfold Dat.fetched Dat.blockOf iblk0; rw [A_eq0]; try rfl)

theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_in0, after0_in1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

end Cert.KernelIdeal.Tiles

end
-- ==== Proof.DenseTile3.lean ====
import proofs.«414299_j48155173322928_2_alg».proof.Proof.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeros3 : (![0, 0] : Fin 2 → Nat) = fun _ => 0 := funext fun a => by fin_cases a <;> rfl

abbrev r3_0 : Rect S2000x64 := Rect.unit (s := S2000x64) ![0, 0] S2000x64.size inb_S2000x64_S2000x64_0_0
abbrev r3_1 : Rect S64x40 := Rect.unit (s := S64x40) ![0, 0] S64x40.size inb_S64x40_S64x40_0_0
abbrev r3_2 : Rect S2000x40 := Rect.unit (s := S2000x40) ![0, 0] S2000x40.size inb_S2000x40_S2000x40_0_0

def out3_2 (x0 : Vec F S2000x64 .f32) (x1 : Vec F S64x40 .f32) : Vec F S2000x40 .f32 :=
  View.canon [⟨r3_2, k3_pay1 (View.ld x0 r3_0) (View.ld x1 r3_1)⟩]

theorem out3_2_eq (x0 : Vec F S2000x64 .f32) (x1 : Vec F S64x40 .f32) : out3_2 x0 x1 = k3_pay1 x0 x1 := by
  unfold out3_2
  rw [View.canon_unit_zero zeros3, View.ld_unit_zero (S := S2000x64) zeros3, View.ld_unit_zero (S := S64x40) zeros3]

theorem cover3_2 (p0 : Vec F S2000x40 .f32) (y : S2000x40.Idx) :
    ∃ pc ∈ ([⟨r3_2, p0⟩] : List (View.Piece (Elt F) S2000x40 .f32)), y ∈ pc.1.set :=
  ⟨_, List.mem_singleton_self _, View.mem_set_unit_zero zeros3 inb_S2000x40_S2000x40_0_0 y⟩

set_option maxHeartbeats 1000000 in

theorem sound_kernel3 (c : Dev nD) (E : Set ℕ) (i : grid3.Coords)
    (arg1 : Memref sig .tc .vmem S2000x64 .f32) (harg1 : arg1.IsWhole)
    (arg2 : Memref sig .tc .vmem S64x40 .f32) (harg2 : arg2.IsWhole)
    (arg3 : Memref sig .tc .vmem S2000x40 .f32) (harg3 : arg3.IsWhole)
    (x0 : Vec F S2000x64 .f32) (x1 : Vec F S64x40 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_in0 (c : Dev nD) (t : Fin cfg3.N) : (dat3 V c).after 0 t = iblk3 V c 0 t := by dsimp only [dat3]
theorem after3_in1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem after3_out (c : Dev nD) (t : Fin cfg3.N) : (dat3 V c).after 2 t = k3_pay1 (iblk3 V c 0 t) (iblk3 V c 1 t) :=
  (after3_2 V c t).trans (out3_2_eq _ _)

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_in0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_in1]; unfold Dat.blockOf iblk3; rw [A_eq3]; try rfl) t d).trans
    (by unfold Dat.fetched Dat.blockOf iblk3; rw [A_eq3]; try rfl)

theorem sound_body3 (c : Dev nD) (t : Fin cfg3.N) :
    iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t))) := by
  unfold bodyAt3
  simp only [before3_0, before3_1]
  rw [show (dat3 V c).Φ t.succ = (dat3 V c).Φ t.castSucc from rfl,
    show (dat3 V c).owesAt () t.succ = (dat3 V c).owesAt () t.castSucc from rfl,
    after3_in0, after3_in1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Tiles

end
-- ==== Proof.GatherTile1.lean ====
import proofs.«414299_j48155173322928_2_alg».proof.Proof.Blocks
import Idealize.ShloMosaic.Lib.Pipeline.Value
import Idealize.ShloMosaic.Lib.Tactic

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop :=
  (Scalar.cmpi .ne (Scalar.extui (Scalar.cmpi .eq (BitVec.ofNat 32 (i 1).val) 0#32)) 0#32) = 1#1
abbrev cond1_1 (i : grid1.Coords) : Prop := k1_cond2 i = 1#1

-- The body's test of the fast coordinate (t modulo the row length 50: no axis follows it) against k singles out the k-th point of each row.
theorem hcond1 (t : Fin cfg1.N) (k : ℕ) (hk : k < 50) :
    Scalar.cmpi .ne (Scalar.extui (Scalar.cmpi .eq (BitVec.ofNat 32 (grid1.coords t 1).val) (BitVec.ofNat 32 k))) 0#32 = 1#1
      ↔ t.val % 50 = k := by
  rw [Scalar.guard_iff, Scalar.cmpi, IntOp.cmpi_eq, ← BitVec.toNat_inj, BitVec.toNat_ofNat, BitVec.toNat_ofNat,
    show (grid1.coords t 1).val = t.val / grid1.stride 1 % 50 from rfl, (by decide : grid1.stride 1 = 1)]
  omega

theorem hz1 : (![0, 0] : Fin 2 → ℕ) = fun _ => 0 := by funext a; fin_cases a <;> rfl

set_option maxHeartbeats 4000000 in
-- One run of the body: the accumulator becomes the point's update of zero (start of a row) or of its old value; at the end of a row the result is the new accumulator.
theorem sound_kernel1 (c : Dev nD) (i : grid1.Coords)
    (mD : Memref sig .tc .vmem S1x2048 .i32) (hD : mD.IsWhole) (mW : Memref sig .tc .vmem S1x2048 .f32) (hW : mW.IsWhole)
    (mX : Memref sig .tc .vmem S2000x64 .f32) (hX : mX.IsWhole) (mO : Memref sig .tc .vmem S2048x64 .f32) (hO : mO.IsWhole)
    (mS : Memref sig .tc .vmem S2048x64 .f32) (hS : mS.IsWhole) (h : cond1_0 i → ¬cond1_1 i)
    (x0 : Vec F S1x2048 .i32) (x1 : Vec F S1x2048 .f32) (x2 : Vec F S2000x64 .f32) (xo xs : Vec F S2048x64 .f32)
    (E : Set ℕ) (K : PUnit → sProp 𝕄) :
    iprop(owns c.tc mD fullShare x0 ∗ owns c.tc mW fullShare x1 ∗ owns c.tc mX fullShare x2
        ∗ owns c.tc mO fullShare xo ∗ owns c.tc mS fullShare xs
        ∗ (owns c.tc mD fullShare x0 -∗ owns c.tc mW fullShare x1 -∗ owns c.tc mX fullShare x2
            -∗ owns c.tc mO fullShare (if cond1_1 i then k1_pay2 i x0 x1 x2 (if cond1_0 i then k1_pay1 else xs) else xo)
            -∗ owns c.tc mS fullShare (k1_pay2 i x0 x1 x2 (if cond1_0 i then k1_pay1 else xs)) -∗ K ⟨⟩))
      ⊢ wp frame (wpE (defs₀ (F := F)) Variants.none c none) E (cc1__gather_kernel i mD hD mW hW mX hX mO hO mS hS) K := by
  by_cases hc0 : cond1_0 i <;> by_cases hc1 : cond1_1 i
  · exact absurd hc1 (h hc0)
  all_goals
    first | rw [if_pos hc0] | rw [if_neg hc0]
    first | rw [if_pos hc1] | rw [if_neg hc1]
    simp only [cc1__gather_kernel_eq_skeleton]; unfold cc1__gather_kernel_skel owns
    iintro ⟨⟨%f0, %e0, H0⟩, ⟨%f1, %e1, H1⟩, ⟨%f2, %e2, H2⟩, ⟨%f3, %e3, H3⟩, ⟨%fs, %es, HS⟩, Hk⟩
    subst e0 e1 e2 e3 es
    sl_exec
    sl_step
    iapply Hk $$ [H0] [H1] [H2] [H3] [HS]
    all_goals
      iexists _; isplitr; swap; · iassumption
      ipureintro
      first
      | with_reducible rfl
      | sl_unfold_run_names
        rw [View.read_writes_eq_canon _ _ _ fun y => ⟨_, List.mem_cons_self, View.mem_set_unit_zero hz1 inb_S2048x64_S2048x64_0_0 y⟩,
          View.canon_cons_unit_zero hz1]
        simp only [View.readAt_eq_ld, View.ld_unit_zero (S := S1x2048) hz1, View.ld_unit_zero (S := S2000x64) hz1,
          View.ld_unit_zero (S := S2048x64) hz1, View.readCov_unit_zero (S := S2048x64) _ hz1]

-- What the accumulator holds after point n: the point's update of zero at the start of a row, of what the point before left elsewhere.
def acc1 (c : Dev nD) (n : ℕ) (hn : n < cfg1.N) : Vec F S2048x64 .f32 :=
  k1_pay2 (grid1.coords ⟨n, hn⟩) (iblk1 V c 0 ⟨n, hn⟩) (iblk1 V c 1 ⟨n, hn⟩) (iblk1 V c 2 ⟨n, hn⟩)
    (if h : n % 50 = 0 then k1_pay1 else acc1 c (n - 1) (by omega))
termination_by n
decreasing_by omega

theorem acc1_first (c : Dev nD) (t : Fin cfg1.N) (h : t.val % 50 = 0) :
    acc1 V c t.val t.isLt = k1_pay2 (grid1.coords t) (iblk1 V c 0 t) (iblk1 V c 1 t) (iblk1 V c 2 t) k1_pay1 := by
  rw [acc1, dif_pos h]

theorem acc1_next (c : Dev nD) (t : Fin cfg1.N) (h : t.val % 50 ≠ 0) :
    acc1 V c t.val t.isLt = k1_pay2 (grid1.coords t) (iblk1 V c 0 t) (iblk1 V c 1 t) (iblk1 V c 2 t) (acc1 V c (t.val - 1) (by omega)) := by
  rw [acc1, dif_neg h]

-- After point n the accumulator is acc1 n.
def Phi1 (c : Dev nD) (n : ℕ) : sProp 𝕄 :=
  iprop(iprop((∃ d, ⌜∀ m hm, n = m + 1 → d = acc1 V c m hm⌝ ∗ owns c.tc (Memref.whole cc1_scratch0) fullShare d)
    ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := Phi1 V c t.val
  q _ := fullShare
  owed _ := 0

theorem A_eq1 (c : Dev nD) (w : Fin cfg1.W) : (dat1 V c).A w = V c (Pipeline.arrRef spec1 w) := by
  dsimp only [dat1]

theorem after1_out (c : Dev nD) (t : Fin cfg1.N) (h : t.val % 50 = 49) : (dat1 V c).after 3 t = acc1 V c t.val t.isLt := by
  dsimp only [dat1]

theorem before1 (c : Dev nD) (t : Fin cfg1.N) : (∀ d, (dat1 V c).before 0 t d = iblk1 V c 0 t)
    ∧ (∀ d, (dat1 V c).before 1 t d = iblk1 V c 1 t) ∧ ∀ d, (dat1 V c).before 2 t d = iblk1 V c 2 t := by
  refine ⟨?_, ?_, ?_⟩ <;> exact fun d =>
    ((dat1 V c).before_in_eq_fetched _ rfl (fun _ => rfl) (fun _ _ _ => rfl) (fun _ => rfl) t d).trans rfl

theorem leave1_3 (c : Dev nD) (t : Fin cfg1.N) (d) :
    owns c.tc (win1_3.stage (cfg1.slots t 3)) fullShare
      (if cond1_1 (grid1.coords t) then acc1 V c t.val t.isLt else (dat1 V c).before 3 t d)
      ⊢ (dat1 V c).leavesExact 3 t := by
  by_cases h : cond1_1 (grid1.coords t)
  · rw [if_pos h]; unfold Dat.leavesExact
    rw [show cfg1.idle 3 (grid1.coords t) = false from Eq.mpr (Bool.not_eq_false' _) (beq_iff_eq.mpr h)]
    exact .rfl
  · rw [if_neg h, Dat.leavesExact_idle _ 3 t (show cfg1.idle 3 (grid1.coords t) = true from Eq.mpr (Bool.not_eq_true' _) (beq_eq_false_iff_ne.mpr h))
      (Bool.eq_false_iff.mpr fun hf => h ((hcond1 t 49 (by omega)).mpr ((flush1_3 t).mp hf)))]
    iintro H; iexists d; iexact H

set_option maxHeartbeats 4800000 in
theorem sound_body1 (c : Dev nD) (t : Fin cfg1.N) :
    iprop(Phi1 V c t.val ∗ (dat1 V c).owesAt () 0
      ∗ (∃ d, owns c.tc (win1_0.stage (cfg1.slots t 0)) fullShare ((dat1 V c).before 0 t d))
      ∗ (∃ d, owns c.tc (win1_1.stage (cfg1.slots t 1)) fullShare ((dat1 V c).before 1 t d))
      ∗ (∃ d, owns c.tc (win1_2.stage (cfg1.slots t 2)) fullShare ((dat1 V c).before 2 t d))
      ∗ (∃ d, owns c.tc (win1_3.stage (cfg1.slots t 3)) fullShare ((dat1 V c).before 3 t d)))
    ⊢ wp frame (wpE (defs₀ (F := F)) Variants.none c none) Set.univ (bodyAt1 t) fun _ =>
      iprop(Phi1 V c (t.val + 1) ∗ (dat1 V c).owesAt () 0
        ∗ owns c.tc (win1_0.stage (cfg1.slots t 0)) fullShare (iblk1 V c 0 t)
        ∗ owns c.tc (win1_1.stage (cfg1.slots t 1)) fullShare (iblk1 V c 1 t)
        ∗ owns c.tc (win1_2.stage (cfg1.slots t 2)) fullShare (iblk1 V c 2 t) ∗ (dat1 V c).leavesExact 3 t) := by
  simp only [before1 V c t]
  unfold Phi1 bodyAt1
  iintro ⟨⟨⟨⟨%ds, %hs, HS⟩, HR⟩, Hg⟩, Ho, ⟨%d0, H0⟩, ⟨%d1, H1⟩, ⟨%d2, H2⟩, ⟨%d3, H3⟩⟩
  have hA : k1_pay2 (grid1.coords t) (iblk1 V c 0 t) (iblk1 V c 1 t) (iblk1 V c 2 t) (if cond1_0 (grid1.coords t) then k1_pay1 else ds)
      = acc1 V c t.val t.isLt := by
    by_cases h0 : t.val % 50 = 0
    · rw [if_pos ((hcond1 t 0 (by omega)).mpr h0), acc1_first V c t h0]
    · rw [if_neg (mt (hcond1 t 0 (by omega)).mp h0), acc1_next V c t h0,
        hs (t.val - 1) _ (by omega)]
  iapply (sound_kernel1 c (grid1.coords t) _ _ _ _ _ _ _ _ _ _
    (fun h0 h1 => by have := (hcond1 t 0 (by omega)).mp h0; have := (hcond1 t 49 (by omega)).mp h1; omega) _ _ _ _ _ Set.univ _)
  iframe H0 H1 H2 H3 HS
  iintro H0 H1 H2 H3 HS
  rw [hA]
  iframe HR Hg Ho H0 H1 H2
  isplitl [HS]
  · iexists _; iframe HS; ipureintro
    intro m hm e; cases Nat.succ.inj e; rfl
  · iapply (leave1_3 V c t d3); iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  show _ ⊢ Phi1 V c 0
  unfold Pipeline.ΦA Phi1; rw [scopedRest1_split]; simp only [owns_whole]
  iintro ⟨⟨⟨%f, H⟩, HR⟩, Hg⟩
  iframe HR Hg
  iexists f; iframe H; ipureintro
  exact fun _ _ e => absurd e.symm (Nat.succ_ne_zero _)

theorem hout1 (c : Dev nD) : (dat1 V c).Φ (Fin.last cfg1.N) ⊢ Pipeline.ΦA spec1 c := by
  show Phi1 V c _ ⊢ _
  unfold Pipeline.ΦA Phi1; rw [scopedRest1_split]; simp only [owns_whole]
  iintro ⟨⟨⟨%f, -, H⟩, HR⟩, Hg⟩
  iframe HR Hg
  iexists f; iexact H

end Cert.KernelIdeal.Tiles

end
-- ==== Proof.GatherTile4.lean ====
import proofs.«414299_j48155173322928_2_alg».proof.Proof.Blocks
import Idealize.ShloMosaic.Lib.Pipeline.Value
import Idealize.ShloMosaic.Lib.Tactic

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 1).val) 0#32)) 0#32) = 1#1
abbrev cond4_1 (i : grid4.Coords) : Prop := k4_cond2 i = 1#1

-- The body's test of the fast coordinate (t modulo the row length 50: no axis follows it) against k singles out the k-th point of each row.
theorem hcond4 (t : Fin cfg4.N) (k : ℕ) (hk : k < 50) :
    Scalar.cmpi .ne (Scalar.extui (Scalar.cmpi .eq (BitVec.ofNat 32 (grid4.coords t 1).val) (BitVec.ofNat 32 k))) 0#32 = 1#1
      ↔ t.val % 50 = k := by
  rw [Scalar.guard_iff, Scalar.cmpi, IntOp.cmpi_eq, ← BitVec.toNat_inj, BitVec.toNat_ofNat, BitVec.toNat_ofNat,
    show (grid4.coords t 1).val = t.val / grid4.stride 1 % 50 from rfl, (by decide : grid4.stride 1 = 1)]
  omega

theorem hz4 : (![0, 0] : Fin 2 → ℕ) = fun _ => 0 := by funext a; fin_cases a <;> rfl

set_option maxHeartbeats 4000000 in
-- One run of the body: the accumulator becomes the point's update of zero (start of a row) or of its old value; at the end of a row the result is the new accumulator.
theorem sound_kernel4 (c : Dev nD) (i : grid4.Coords)
    (mD : Memref sig .tc .vmem S1x2048 .i32) (hD : mD.IsWhole) (mW : Memref sig .tc .vmem S1x2048 .f32) (hW : mW.IsWhole)
    (mX : Memref sig .tc .vmem S2000x40 .f32) (hX : mX.IsWhole) (mO : Memref sig .tc .vmem S2048x40 .f32) (hO : mO.IsWhole)
    (mS : Memref sig .tc .vmem S2048x40 .f32) (hS : mS.IsWhole) (h : cond4_0 i → ¬cond4_1 i)
    (x0 : Vec F S1x2048 .i32) (x1 : Vec F S1x2048 .f32) (x2 : Vec F S2000x40 .f32) (xo xs : Vec F S2048x40 .f32)
    (E : Set ℕ) (K : PUnit → sProp 𝕄) :
    iprop(owns c.tc mD fullShare x0 ∗ owns c.tc mW fullShare x1 ∗ owns c.tc mX fullShare x2
        ∗ owns c.tc mO fullShare xo ∗ owns c.tc mS fullShare xs
        ∗ (owns c.tc mD fullShare x0 -∗ owns c.tc mW fullShare x1 -∗ owns c.tc mX fullShare x2
            -∗ owns c.tc mO fullShare (if cond4_1 i then k4_pay2 i x0 x1 x2 (if cond4_0 i then k4_pay1 else xs) else xo)
            -∗ owns c.tc mS fullShare (k4_pay2 i x0 x1 x2 (if cond4_0 i then k4_pay1 else xs)) -∗ K ⟨⟩))
      ⊢ wp frame (wpE (defs₀ (F := F)) Variants.none c none) E (cc4__gather_kernel i mD hD mW hW mX hX mO hO mS hS) K := by
  by_cases hc0 : cond4_0 i <;> by_cases hc1 : cond4_1 i
  · exact absurd hc1 (h hc0)
  all_goals
    first | rw [if_pos hc0] | rw [if_neg hc0]
    first | rw [if_pos hc1] | rw [if_neg hc1]
    simp only [cc4__gather_kernel_eq_skeleton]; unfold cc4__gather_kernel_skel owns
    iintro ⟨⟨%f0, %e0, H0⟩, ⟨%f1, %e1, H1⟩, ⟨%f2, %e2, H2⟩, ⟨%f3, %e3, H3⟩, ⟨%fs, %es, HS⟩, Hk⟩
    subst e0 e1 e2 e3 es
    sl_exec
    sl_step
    iapply Hk $$ [H0] [H1] [H2] [H3] [HS]
    all_goals
      iexists _; isplitr; swap; · iassumption
      ipureintro
      first
      | with_reducible rfl
      | sl_unfold_run_names
        rw [View.read_writes_eq_canon _ _ _ fun y => ⟨_, List.mem_cons_self, View.mem_set_unit_zero hz4 inb_S2048x40_S2048x40_0_0 y⟩,
          View.canon_cons_unit_zero hz4]
        simp only [View.readAt_eq_ld, View.ld_unit_zero (S := S1x2048) hz4, View.ld_unit_zero (S := S2000x40) hz4,
          View.ld_unit_zero (S := S2048x40) hz4, View.readCov_unit_zero (S := S2048x40) _ hz4]

-- What the accumulator holds after point n: the point's update of zero at the start of a row, of what the point before left elsewhere.
def acc4 (c : Dev nD) (n : ℕ) (hn : n < cfg4.N) : Vec F S2048x40 .f32 :=
  k4_pay2 (grid4.coords ⟨n, hn⟩) (iblk4 V c 0 ⟨n, hn⟩) (iblk4 V c 1 ⟨n, hn⟩) (iblk4 V c 2 ⟨n, hn⟩)
    (if h : n % 50 = 0 then k4_pay1 else acc4 c (n - 1) (by omega))
termination_by n
decreasing_by omega

theorem acc4_first (c : Dev nD) (t : Fin cfg4.N) (h : t.val % 50 = 0) :
    acc4 V c t.val t.isLt = k4_pay2 (grid4.coords t) (iblk4 V c 0 t) (iblk4 V c 1 t) (iblk4 V c 2 t) k4_pay1 := by
  rw [acc4, dif_pos h]

theorem acc4_next (c : Dev nD) (t : Fin cfg4.N) (h : t.val % 50 ≠ 0) :
    acc4 V c t.val t.isLt = k4_pay2 (grid4.coords t) (iblk4 V c 0 t) (iblk4 V c 1 t) (iblk4 V c 2 t) (acc4 V c (t.val - 1) (by omega)) := by
  rw [acc4, dif_neg h]

-- After point n the accumulator is acc4 n.
def Phi4 (c : Dev nD) (n : ℕ) : sProp 𝕄 :=
  iprop(iprop((∃ d, ⌜∀ m hm, n = m + 1 → d = acc4 V c m hm⌝ ∗ owns c.tc (Memref.whole cc4_scratch0) fullShare d)
    ∗ Pipeline.scopedRestBut (Ix := Unit) (Name := ℕ) (U := UR sig nD τ) (Lvl := ℕ) (Val := Elt F) spec4 c [cc4_scratch0]) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ t := Phi4 V c t.val
  q _ := fullShare
  owed _ := 0

theorem A_eq4 (c : Dev nD) (w : Fin cfg4.W) : (dat4 V c).A w = V c (Pipeline.arrRef spec4 w) := by
  dsimp only [dat4]

theorem after4_out (c : Dev nD) (t : Fin cfg4.N) (h : t.val % 50 = 49) : (dat4 V c).after 3 t = acc4 V c t.val t.isLt := by
  dsimp only [dat4]

theorem before4 (c : Dev nD) (t : Fin cfg4.N) : (∀ d, (dat4 V c).before 0 t d = iblk4 V c 0 t)
    ∧ (∀ d, (dat4 V c).before 1 t d = iblk4 V c 1 t) ∧ ∀ d, (dat4 V c).before 2 t d = iblk4 V c 2 t := by
  refine ⟨?_, ?_, ?_⟩ <;> exact fun d =>
    ((dat4 V c).before_in_eq_fetched _ rfl (fun _ => rfl) (fun _ _ _ => rfl) (fun _ => rfl) t d).trans rfl

theorem leave4_3 (c : Dev nD) (t : Fin cfg4.N) (d) :
    owns c.tc (win4_3.stage (cfg4.slots t 3)) fullShare
      (if cond4_1 (grid4.coords t) then acc4 V c t.val t.isLt else (dat4 V c).before 3 t d)
      ⊢ (dat4 V c).leavesExact 3 t := by
  by_cases h : cond4_1 (grid4.coords t)
  · rw [if_pos h]; unfold Dat.leavesExact
    rw [show cfg4.idle 3 (grid4.coords t) = false from Eq.mpr (Bool.not_eq_false' _) (beq_iff_eq.mpr h)]
    exact .rfl
  · rw [if_neg h, Dat.leavesExact_idle _ 3 t (show cfg4.idle 3 (grid4.coords t) = true from Eq.mpr (Bool.not_eq_true' _) (beq_eq_false_iff_ne.mpr h))
      (Bool.eq_false_iff.mpr fun hf => h ((hcond4 t 49 (by omega)).mpr ((flush4_3 t).mp hf)))]
    iintro H; iexists d; iexact H

set_option maxHeartbeats 4800000 in
theorem sound_body4 (c : Dev nD) (t : Fin cfg4.N) :
    iprop(Phi4 V c t.val ∗ (dat4 V c).owesAt () 0
      ∗ (∃ d, owns c.tc (win4_0.stage (cfg4.slots t 0)) fullShare ((dat4 V c).before 0 t d))
      ∗ (∃ d, owns c.tc (win4_1.stage (cfg4.slots t 1)) fullShare ((dat4 V c).before 1 t d))
      ∗ (∃ d, owns c.tc (win4_2.stage (cfg4.slots t 2)) fullShare ((dat4 V c).before 2 t d))
      ∗ (∃ d, owns c.tc (win4_3.stage (cfg4.slots t 3)) fullShare ((dat4 V c).before 3 t d)))
    ⊢ wp frame (wpE (defs₀ (F := F)) Variants.none c none) Set.univ (bodyAt4 t) fun _ =>
      iprop(Phi4 V c (t.val + 1) ∗ (dat4 V c).owesAt () 0
        ∗ owns c.tc (win4_0.stage (cfg4.slots t 0)) fullShare (iblk4 V c 0 t)
        ∗ owns c.tc (win4_1.stage (cfg4.slots t 1)) fullShare (iblk4 V c 1 t)
        ∗ owns c.tc (win4_2.stage (cfg4.slots t 2)) fullShare (iblk4 V c 2 t) ∗ (dat4 V c).leavesExact 3 t) := by
  simp only [before4 V c t]
  unfold Phi4 bodyAt4
  iintro ⟨⟨⟨⟨%ds, %hs, HS⟩, HR⟩, Hg⟩, Ho, ⟨%d0, H0⟩, ⟨%d1, H1⟩, ⟨%d2, H2⟩, ⟨%d3, H3⟩⟩
  have hA : k4_pay2 (grid4.coords t) (iblk4 V c 0 t) (iblk4 V c 1 t) (iblk4 V c 2 t) (if cond4_0 (grid4.coords t) then k4_pay1 else ds)
      = acc4 V c t.val t.isLt := by
    by_cases h0 : t.val % 50 = 0
    · rw [if_pos ((hcond4 t 0 (by omega)).mpr h0), acc4_first V c t h0]
    · rw [if_neg (mt (hcond4 t 0 (by omega)).mp h0), acc4_next V c t h0,
        hs (t.val - 1) _ (by omega)]
  iapply (sound_kernel4 c (grid4.coords t) _ _ _ _ _ _ _ _ _ _
    (fun h0 h1 => by have := (hcond4 t 0 (by omega)).mp h0; have := (hcond4 t 49 (by omega)).mp h1; omega) _ _ _ _ _ Set.univ _)
  iframe H0 H1 H2 H3 HS
  iintro H0 H1 H2 H3 HS
  rw [hA]
  iframe HR Hg Ho H0 H1 H2
  isplitl [HS]
  · iexists _; iframe HS; ipureintro
    intro m hm e; cases Nat.succ.inj e; rfl
  · iapply (leave4_3 V c t d3); iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  show _ ⊢ Phi4 V c 0
  unfold Pipeline.ΦA Phi4; rw [scopedRest4_split]; simp only [owns_whole]
  iintro ⟨⟨⟨%f, H⟩, HR⟩, Hg⟩
  iframe HR Hg
  iexists f; iframe H; ipureintro
  exact fun _ _ e => absurd e.symm (Nat.succ_ne_zero _)

theorem hout4 (c : Dev nD) : (dat4 V c).Φ (Fin.last cfg4.N) ⊢ Pipeline.ΦA spec4 c := by
  show Phi4 V c _ ⊢ _
  unfold Pipeline.ΦA Phi4; rw [scopedRest4_split]; simp only [owns_whole]
  iintro ⟨⟨⟨%f, -, H⟩, HR⟩, Hg⟩
  iframe HR Hg
  iexists f; iexact H

end Cert.KernelIdeal.Tiles

end
-- ==== Proof.ScatterTile2.lean ====
import proofs.«414299_j48155173322928_2_alg».proof.Proof.Blocks
import Idealize.ShloMosaic.Lib.Pipeline.Value
import Idealize.ShloMosaic.Lib.Tactic

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop :=
  (Scalar.cmpi .ne (Scalar.extui (Scalar.cmpi .eq (BitVec.ofNat 32 (i 1).val) 0#32)) 0#32) = 1#1
abbrev cond2_1 (i : grid2.Coords) : Prop := k2_cond2 i = 1#1

-- The body's test of the fast coordinate (t modulo the row length 782: no axis follows it) against k singles out the k-th point of each row.
theorem hcond2 (t : Fin cfg2.N) (k : ℕ) (hk : k < 782) :
    Scalar.cmpi .ne (Scalar.extui (Scalar.cmpi .eq (BitVec.ofNat 32 (grid2.coords t 1).val) (BitVec.ofNat 32 k))) 0#32 = 1#1
      ↔ t.val % 782 = k := by
  rw [Scalar.guard_iff, Scalar.cmpi, IntOp.cmpi_eq, ← BitVec.toNat_inj, BitVec.toNat_ofNat, BitVec.toNat_ofNat,
    show (grid2.coords t 1).val = t.val / grid2.stride 1 % 782 from rfl, (by decide : grid2.stride 1 = 1)]
  omega

theorem zero_off : (![0, 0] : Fin 2 → ℕ) = fun _ => 0 := by funext a; fin_cases a <;> rfl

set_option maxHeartbeats 1000000 in
-- One run of the body: the accumulator becomes the point's update of zero (start of a row) or of its old value; at the end of a row the result is the epilogue of the new accumulator.
theorem sound_kernel2 (c : Dev nD) (i : grid2.Coords)
    (mD : Memref sig .tc .vmem S1x2048 .i32) (hD : mD.IsWhole) (mM : Memref sig .tc .vmem S2048x64 .f32) (hM : mM.IsWhole)
    (mB : Memref sig .tc .vmem S1x64 .f32) (hB : mB.IsWhole) (mO : Memref sig .tc .vmem S2000x64 .f32) (hO : mO.IsWhole)
    (mS : Memref sig .tc .vmem S2000x64 .f32) (hS : mS.IsWhole) (h : cond2_0 i → ¬cond2_1 i)
    (x0 : Vec F S1x2048 .i32) (x1 : Vec F S2048x64 .f32) (x2 : Vec F S1x64 .f32) (xo xs : Vec F S2000x64 .f32)
    (E : Set ℕ) (K : PUnit → sProp 𝕄) :
    iprop(owns c.tc mD fullShare x0 ∗ owns c.tc mM fullShare x1 ∗ owns c.tc mB fullShare x2
        ∗ owns c.tc mO fullShare xo ∗ owns c.tc mS fullShare xs
        ∗ (owns c.tc mD fullShare x0 -∗ owns c.tc mM fullShare x1 -∗ owns c.tc mB fullShare x2
            -∗ owns c.tc mO fullShare
                (if cond2_1 i then k2_pay3 (k2_pay2 i x0 x1 (if cond2_0 i then k2_pay1 else xs)) x2 else xo)
            -∗ owns c.tc mS fullShare (k2_pay2 i x0 x1 (if cond2_0 i then k2_pay1 else xs)) -∗ K ⟨⟩))
      ⊢ wp frame (wpE (defs₀ (F := F)) Variants.none c none) E (cc2__scatter_kernel i mD hD mM hM mB hB mO hO mS hS) K := by
  by_cases hc0 : cond2_0 i <;> by_cases hc1 : cond2_1 i
  · exact absurd hc1 (h hc0)
  all_goals
    first | rw [if_pos hc0] | rw [if_neg hc0]
    first | rw [if_pos hc1] | rw [if_neg hc1]
    simp only [cc2__scatter_kernel_eq_skeleton]; unfold cc2__scatter_kernel_skel owns
    iintro ⟨⟨%f0, %e0, H0⟩, ⟨%f1, %e1, H1⟩, ⟨%f2, %e2, H2⟩, ⟨%f3, %e3, H3⟩, ⟨%fs, %es, HS⟩, Hk⟩
    subst e0 e1 e2 e3 es
    sl_exec
    sl_step
    iapply Hk $$ [H0] [H1] [H2] [H3] [HS]
    all_goals
      iexists _; isplitr; swap; · iassumption
      ipureintro
      first
      | with_reducible rfl
      | sl_unfold_run_names
        rw [View.read_writes_eq_canon _ _ _ fun y => ⟨_, List.mem_cons_self, View.mem_set_unit_zero zero_off inb_S2000x64_S2000x64_0_0 y⟩,
          View.canon_cons_unit_zero zero_off]
        simp only [View.readAt_eq_ld, View.ld_unit_zero (S := S1x2048) zero_off, View.ld_unit_zero (S := S2048x64) zero_off,
          View.ld_unit_zero (S := S1x64) zero_off, View.ld_unit_zero (S := S2000x64) zero_off,
          View.readCov_unit_zero (S := S2000x64) _ zero_off]

-- What the accumulator holds after point n: the point's update of zero at the start of a row, of what the point before left elsewhere.
def acc2 (c : Dev nD) (n : ℕ) (hn : n < cfg2.N) : Vec F S2000x64 .f32 :=
  k2_pay2 (grid2.coords ⟨n, hn⟩) (iblk2 V c 0 ⟨n, hn⟩) (iblk2 V c 1 ⟨n, hn⟩)
    (if h : n % 782 = 0 then k2_pay1 else acc2 c (n - 1) (by omega))
termination_by n
decreasing_by omega

theorem acc2_first (c : Dev nD) (t : Fin cfg2.N) (h : t.val % 782 = 0) :
    acc2 V c t.val t.isLt = k2_pay2 (grid2.coords t) (iblk2 V c 0 t) (iblk2 V c 1 t) k2_pay1 := by
  rw [acc2, dif_pos h]

theorem acc2_next (c : Dev nD) (t : Fin cfg2.N) (h : t.val % 782 ≠ 0) :
    acc2 V c t.val t.isLt = k2_pay2 (grid2.coords t) (iblk2 V c 0 t) (iblk2 V c 1 t)
      (acc2 V c (t.val - 1) (Nat.lt_of_le_of_lt (Nat.sub_le _ _) t.isLt)) := by
  rw [acc2, dif_neg h]

-- After point n the accumulator is acc2 n.
def Phi2 (c : Dev nD) (n : ℕ) : sProp 𝕄 :=
  iprop(iprop((∃ d, ⌜∀ m hm, n = m + 1 → d = acc2 V c m hm⌝ ∗ owns c.tc (Memref.whole cc2_scratch0) fullShare d)
    ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val
  q _ := fullShare
  owed _ := 0

theorem A_eq2 (c : Dev nD) (w : Fin cfg2.W) : (dat2 V c).A w = V c (Pipeline.arrRef spec2 w) := by
  dsimp only [dat2]

theorem after2_out (c : Dev nD) (t : Fin cfg2.N) (h : t.val % 782 = 781) :
    (dat2 V c).after 3 t = k2_pay3 (acc2 V c t.val t.isLt) (iblk2 V c 2 t) := by dsimp only [dat2]

theorem before2 (c : Dev nD) (t : Fin cfg2.N) : (∀ d, (dat2 V c).before 0 t d = iblk2 V c 0 t)
    ∧ (∀ d, (dat2 V c).before 1 t d = iblk2 V c 1 t) ∧ ∀ d, (dat2 V c).before 2 t d = iblk2 V c 2 t := by
  refine ⟨?_, ?_, ?_⟩ <;> exact fun d =>
    ((dat2 V c).before_in_eq_fetched _ rfl (fun _ => rfl) (fun _ _ _ => rfl) (fun _ => rfl) t d).trans rfl

theorem leave2_3 (c : Dev nD) (t : Fin cfg2.N) (d) :
    owns c.tc (win2_3.stage (cfg2.slots t 3)) fullShare
      (if cond2_1 (grid2.coords t) then k2_pay3 (acc2 V c t.val t.isLt) (iblk2 V c 2 t) else (dat2 V c).before 3 t d)
      ⊢ (dat2 V c).leavesExact 3 t := by
  by_cases h : cond2_1 (grid2.coords t)
  · rw [if_pos h]; unfold Dat.leavesExact
    rw [show cfg2.idle 3 (grid2.coords t) = false from Eq.mpr (Bool.not_eq_false' _) (beq_iff_eq.mpr h)]
    exact .rfl
  · rw [if_neg h, Dat.leavesExact_idle _ 3 t (show cfg2.idle 3 (grid2.coords t) = true from Eq.mpr (Bool.not_eq_true' _) (beq_eq_false_iff_ne.mpr h))
      (Bool.eq_false_iff.mpr fun hf => h ((hcond2 t 781 (by omega)).mpr ((flush2_3 t).mp hf)))]
    iintro H; iexists d; iexact H

theorem sound_body2 (c : Dev nD) (t : Fin cfg2.N) :
    iprop(Phi2 V c t.val ∗ (dat2 V c).owesAt () 0
      ∗ (∃ d, owns c.tc (win2_0.stage (cfg2.slots t 0)) fullShare ((dat2 V c).before 0 t d))
      ∗ (∃ d, owns c.tc (win2_1.stage (cfg2.slots t 1)) fullShare ((dat2 V c).before 1 t d))
      ∗ (∃ d, owns c.tc (win2_2.stage (cfg2.slots t 2)) fullShare ((dat2 V c).before 2 t d))
      ∗ (∃ d, owns c.tc (win2_3.stage (cfg2.slots t 3)) fullShare ((dat2 V c).before 3 t d)))
    ⊢ wp frame (wpE (defs₀ (F := F)) Variants.none c none) Set.univ (bodyAt2 t) fun _ =>
      iprop(Phi2 V c (t.val + 1) ∗ (dat2 V c).owesAt () 0
        ∗ owns c.tc (win2_0.stage (cfg2.slots t 0)) fullShare (iblk2 V c 0 t)
        ∗ owns c.tc (win2_1.stage (cfg2.slots t 1)) fullShare (iblk2 V c 1 t)
        ∗ owns c.tc (win2_2.stage (cfg2.slots t 2)) fullShare (iblk2 V c 2 t) ∗ (dat2 V c).leavesExact 3 t) := by
  simp only [before2 V c t]
  unfold Phi2 bodyAt2
  iintro ⟨⟨⟨⟨%ds, %hs, HS⟩, HR⟩, Hg⟩, Ho, ⟨%d0, H0⟩, ⟨%d1, H1⟩, ⟨%d2, H2⟩, ⟨%d3, H3⟩⟩
  have hA : k2_pay2 (grid2.coords t) (iblk2 V c 0 t) (iblk2 V c 1 t) (if cond2_0 (grid2.coords t) then k2_pay1 else ds)
      = acc2 V c t.val t.isLt := by
    by_cases h0 : t.val % 782 = 0
    · rw [if_pos ((hcond2 t 0 (by omega)).mpr h0), acc2_first V c t h0]
    · rw [if_neg (mt (hcond2 t 0 (by omega)).mp h0), acc2_next V c t h0,
        hs (t.val - 1) _ (by omega)]
  iapply (sound_kernel2 c (grid2.coords t) _ _ _ _ _ _ _ _ _ _
    (fun h0 h1 => by have := (hcond2 t 0 (by omega)).mp h0; have := (hcond2 t 781 (by omega)).mp h1; omega) _ _ _ _ _ Set.univ _)
  iframe H0 H1 H2 H3 HS
  iintro H0 H1 H2 H3 HS
  rw [hA]
  iframe HR Hg Ho H0 H1 H2
  isplitl [HS]
  · iexists _; iframe HS; ipureintro
    intro m hm e; cases Nat.succ.inj e; rfl
  · iapply (leave2_3 V c t d3); iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  show _ ⊢ Phi2 V c 0
  unfold Pipeline.ΦA Phi2; rw [scopedRest2_split]; simp only [owns_whole]
  iintro ⟨⟨⟨%f, H⟩, HR⟩, Hg⟩
  iframe HR Hg
  iexists f; iframe H; ipureintro
  exact fun _ _ e => absurd e.symm (Nat.succ_ne_zero _)

theorem hout2 (c : Dev nD) : (dat2 V c).Φ (Fin.last cfg2.N) ⊢ Pipeline.ΦA spec2 c := by
  show Phi2 V c _ ⊢ _
  unfold Pipeline.ΦA Phi2; rw [scopedRest2_split]; simp only [owns_whole]
  iintro ⟨⟨⟨%f, -, H⟩, HR⟩, Hg⟩
  iframe HR Hg
  iexists f; iexact H

end Cert.KernelIdeal.Tiles

end
-- ==== Proof.ScatterTile5.lean ====
import proofs.«414299_j48155173322928_2_alg».proof.Proof.Blocks
import Idealize.ShloMosaic.Lib.Pipeline.Value
import Idealize.ShloMosaic.Lib.Tactic

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond5_0 (i : grid5.Coords) : Prop :=
  (Scalar.cmpi .ne (Scalar.extui (Scalar.cmpi .eq (BitVec.ofNat 32 (i 1).val) 0#32)) 0#32) = 1#1
abbrev cond5_1 (i : grid5.Coords) : Prop := k5_cond2 i = 1#1

-- The body's test of the fast coordinate (t modulo the row length 782: no axis follows it) against k singles out the k-th point of each row.
theorem hcond5 (t : Fin cfg5.N) (k : ℕ) (hk : k < 782) :
    Scalar.cmpi .ne (Scalar.extui (Scalar.cmpi .eq (BitVec.ofNat 32 (grid5.coords t 1).val) (BitVec.ofNat 32 k))) 0#32 = 1#1
      ↔ t.val % 782 = k := by
  rw [Scalar.guard_iff, Scalar.cmpi, IntOp.cmpi_eq, ← BitVec.toNat_inj, BitVec.toNat_ofNat, BitVec.toNat_ofNat,
    show (grid5.coords t 1).val = t.val / grid5.stride 1 % 782 from rfl, (by decide : grid5.stride 1 = 1)]
  omega

theorem zero_off : (![0, 0] : Fin 2 → ℕ) = fun _ => 0 := by funext a; fin_cases a <;> rfl

set_option maxHeartbeats 1000000 in
-- One run of the body: the accumulator becomes the point's update of zero (start of a row) or of its old value; at the end of a row the result is the epilogue of the new accumulator.
theorem sound_kernel5 (c : Dev nD) (i : grid5.Coords)
    (mD : Memref sig .tc .vmem S1x2048 .i32) (hD : mD.IsWhole) (mM : Memref sig .tc .vmem S2048x40 .f32) (hM : mM.IsWhole)
    (mB : Memref sig .tc .vmem S1x40 .f32) (hB : mB.IsWhole) (mO : Memref sig .tc .vmem S2000x40 .f32) (hO : mO.IsWhole)
    (mS : Memref sig .tc .vmem S2000x40 .f32) (hS : mS.IsWhole) (h : cond5_0 i → ¬cond5_1 i)
    (x0 : Vec F S1x2048 .i32) (x1 : Vec F S2048x40 .f32) (x2 : Vec F S1x40 .f32) (xo xs : Vec F S2000x40 .f32)
    (E : Set ℕ) (K : PUnit → sProp 𝕄) :
    iprop(owns c.tc mD fullShare x0 ∗ owns c.tc mM fullShare x1 ∗ owns c.tc mB fullShare x2
        ∗ owns c.tc mO fullShare xo ∗ owns c.tc mS fullShare xs
        ∗ (owns c.tc mD fullShare x0 -∗ owns c.tc mM fullShare x1 -∗ owns c.tc mB fullShare x2
            -∗ owns c.tc mO fullShare
                (if cond5_1 i then k5_pay3 (k5_pay2 i x0 x1 (if cond5_0 i then k5_pay1 else xs)) x2 else xo)
            -∗ owns c.tc mS fullShare (k5_pay2 i x0 x1 (if cond5_0 i then k5_pay1 else xs)) -∗ K ⟨⟩))
      ⊢ wp frame (wpE (defs₀ (F := F)) Variants.none c none) E (cc5__scatter_kernel i mD hD mM hM mB hB mO hO mS hS) K := by
  by_cases hc0 : cond5_0 i <;> by_cases hc1 : cond5_1 i
  · exact absurd hc1 (h hc0)
  all_goals
    first | rw [if_pos hc0] | rw [if_neg hc0]
    first | rw [if_pos hc1] | rw [if_neg hc1]
    simp only [cc5__scatter_kernel_eq_skeleton]; unfold cc5__scatter_kernel_skel owns
    iintro ⟨⟨%f0, %e0, H0⟩, ⟨%f1, %e1, H1⟩, ⟨%f2, %e2, H2⟩, ⟨%f3, %e3, H3⟩, ⟨%fs, %es, HS⟩, Hk⟩
    subst e0 e1 e2 e3 es
    sl_exec
    sl_step
    iapply Hk $$ [H0] [H1] [H2] [H3] [HS]
    all_goals
      iexists _; isplitr; swap; · iassumption
      ipureintro
      first
      | with_reducible rfl
      | sl_unfold_run_names
        rw [View.read_writes_eq_canon _ _ _ fun y => ⟨_, List.mem_cons_self, View.mem_set_unit_zero zero_off inb_S2000x40_S2000x40_0_0 y⟩,
          View.canon_cons_unit_zero zero_off]
        simp only [View.readAt_eq_ld, View.ld_unit_zero (S := S1x2048) zero_off, View.ld_unit_zero (S := S2048x40) zero_off,
          View.ld_unit_zero (S := S1x40) zero_off, View.ld_unit_zero (S := S2000x40) zero_off,
          View.readCov_unit_zero (S := S2000x40) _ zero_off]

-- What the accumulator holds after point n: the point's update of zero at the start of a row, of what the point before left elsewhere.
def acc5 (c : Dev nD) (n : ℕ) (hn : n < cfg5.N) : Vec F S2000x40 .f32 :=
  k5_pay2 (grid5.coords ⟨n, hn⟩) (iblk5 V c 0 ⟨n, hn⟩) (iblk5 V c 1 ⟨n, hn⟩)
    (if h : n % 782 = 0 then k5_pay1 else acc5 c (n - 1) (by omega))
termination_by n
decreasing_by omega

theorem acc5_first (c : Dev nD) (t : Fin cfg5.N) (h : t.val % 782 = 0) :
    acc5 V c t.val t.isLt = k5_pay2 (grid5.coords t) (iblk5 V c 0 t) (iblk5 V c 1 t) k5_pay1 := by
  rw [acc5, dif_pos h]

theorem acc5_next (c : Dev nD) (t : Fin cfg5.N) (h : t.val % 782 ≠ 0) :
    acc5 V c t.val t.isLt = k5_pay2 (grid5.coords t) (iblk5 V c 0 t) (iblk5 V c 1 t)
      (acc5 V c (t.val - 1) (Nat.lt_of_le_of_lt (Nat.sub_le _ _) t.isLt)) := by
  rw [acc5, dif_neg h]

-- After point n the accumulator is acc5 n.
def Phi5 (c : Dev nD) (n : ℕ) : sProp 𝕄 :=
  iprop(iprop((∃ d, ⌜∀ m hm, n = m + 1 → d = acc5 V c m hm⌝ ∗ owns c.tc (Memref.whole cc5_scratch0) fullShare d)
    ∗ Pipeline.scopedRestBut (Ix := Unit) (Name := ℕ) (U := UR sig nD τ) (Lvl := ℕ) (Val := Elt F) spec5 c [cc5_scratch0]) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (acc5 V c t.val t.isLt) (iblk5 V c 2 t)
  Φ t := Phi5 V c t.val
  q _ := fullShare
  owed _ := 0

theorem A_eq5 (c : Dev nD) (w : Fin cfg5.W) : (dat5 V c).A w = V c (Pipeline.arrRef spec5 w) := by
  dsimp only [dat5]

theorem after5_out (c : Dev nD) (t : Fin cfg5.N) (h : t.val % 782 = 781) :
    (dat5 V c).after 3 t = k5_pay3 (acc5 V c t.val t.isLt) (iblk5 V c 2 t) := by dsimp only [dat5]

theorem before5 (c : Dev nD) (t : Fin cfg5.N) : (∀ d, (dat5 V c).before 0 t d = iblk5 V c 0 t)
    ∧ (∀ d, (dat5 V c).before 1 t d = iblk5 V c 1 t) ∧ ∀ d, (dat5 V c).before 2 t d = iblk5 V c 2 t := by
  refine ⟨?_, ?_, ?_⟩ <;> exact fun d =>
    ((dat5 V c).before_in_eq_fetched _ rfl (fun _ => rfl) (fun _ _ _ => rfl) (fun _ => rfl) t d).trans rfl

theorem leave5_3 (c : Dev nD) (t : Fin cfg5.N) (d) :
    owns c.tc (win5_3.stage (cfg5.slots t 3)) fullShare
      (if cond5_1 (grid5.coords t) then k5_pay3 (acc5 V c t.val t.isLt) (iblk5 V c 2 t) else (dat5 V c).before 3 t d)
      ⊢ (dat5 V c).leavesExact 3 t := by
  by_cases h : cond5_1 (grid5.coords t)
  · rw [if_pos h]; unfold Dat.leavesExact
    rw [show cfg5.idle 3 (grid5.coords t) = false from Eq.mpr (Bool.not_eq_false' _) (beq_iff_eq.mpr h)]
    exact .rfl
  · rw [if_neg h, Dat.leavesExact_idle _ 3 t (show cfg5.idle 3 (grid5.coords t) = true from Eq.mpr (Bool.not_eq_true' _) (beq_eq_false_iff_ne.mpr h))
      (Bool.eq_false_iff.mpr fun hf => h ((hcond5 t 781 (by omega)).mpr ((flush5_3 t).mp hf)))]
    iintro H; iexists d; iexact H

theorem sound_body5 (c : Dev nD) (t : Fin cfg5.N) :
    iprop(Phi5 V c t.val ∗ (dat5 V c).owesAt () 0
      ∗ (∃ d, owns c.tc (win5_0.stage (cfg5.slots t 0)) fullShare ((dat5 V c).before 0 t d))
      ∗ (∃ d, owns c.tc (win5_1.stage (cfg5.slots t 1)) fullShare ((dat5 V c).before 1 t d))
      ∗ (∃ d, owns c.tc (win5_2.stage (cfg5.slots t 2)) fullShare ((dat5 V c).before 2 t d))
      ∗ (∃ d, owns c.tc (win5_3.stage (cfg5.slots t 3)) fullShare ((dat5 V c).before 3 t d)))
    ⊢ wp frame (wpE (defs₀ (F := F)) Variants.none c none) Set.univ (bodyAt5 t) fun _ =>
      iprop(Phi5 V c (t.val + 1) ∗ (dat5 V c).owesAt () 0
        ∗ owns c.tc (win5_0.stage (cfg5.slots t 0)) fullShare (iblk5 V c 0 t)
        ∗ owns c.tc (win5_1.stage (cfg5.slots t 1)) fullShare (iblk5 V c 1 t)
        ∗ owns c.tc (win5_2.stage (cfg5.slots t 2)) fullShare (iblk5 V c 2 t) ∗ (dat5 V c).leavesExact 3 t) := by
  simp only [before5 V c t]
  unfold Phi5 bodyAt5
  iintro ⟨⟨⟨⟨%ds, %hs, HS⟩, HR⟩, Hg⟩, Ho, ⟨%d0, H0⟩, ⟨%d1, H1⟩, ⟨%d2, H2⟩, ⟨%d3, H3⟩⟩
  have hA : k5_pay2 (grid5.coords t) (iblk5 V c 0 t) (iblk5 V c 1 t) (if cond5_0 (grid5.coords t) then k5_pay1 else ds)
      = acc5 V c t.val t.isLt := by
    by_cases h0 : t.val % 782 = 0
    · rw [if_pos ((hcond5 t 0 (by omega)).mpr h0), acc5_first V c t h0]
    · rw [if_neg (mt (hcond5 t 0 (by omega)).mp h0), acc5_next V c t h0,
        hs (t.val - 1) _ (by omega)]
  iapply (sound_kernel5 c (grid5.coords t) _ _ _ _ _ _ _ _ _ _
    (fun h0 h1 => by have := (hcond5 t 0 (by omega)).mp h0; have := (hcond5 t 781 (by omega)).mp h1; omega) _ _ _ _ _ Set.univ _)
  iframe H0 H1 H2 H3 HS
  iintro H0 H1 H2 H3 HS
  rw [hA]
  iframe HR Hg Ho H0 H1 H2
  isplitl [HS]
  · iexists _; iframe HS; ipureintro
    intro m hm e; cases Nat.succ.inj e; rfl
  · iapply (leave5_3 V c t d3); iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  show _ ⊢ Phi5 V c 0
  unfold Pipeline.ΦA Phi5; rw [scopedRest5_split]; simp only [owns_whole]
  iintro ⟨⟨⟨%f, H⟩, HR⟩, Hg⟩
  iframe HR Hg
  iexists f; iframe H; ipureintro
  exact fun _ _ e => absurd e.symm (Nat.succ_ne_zero _)

theorem hout5 (c : Dev nD) : (dat5 V c).Φ (Fin.last cfg5.N) ⊢ Pipeline.ΦA spec5 c := by
  show Phi5 V c _ ⊢ _
  unfold Pipeline.ΦA Phi5; rw [scopedRest5_split]; simp only [owns_whole]
  iintro ⟨⟨⟨%f, -, H⟩, HR⟩, Hg⟩
  iframe HR Hg
  iexists f; iexact H

end Cert.KernelIdeal.Tiles

end
-- ==== Proof.MainRun.lean ====
import proofs.«414299_j48155173322928_2_alg».proof.Proof.Gen.KernelIdeal.Regions
import proofs.«414299_j48155173322928_2_alg».proof.Proof.DenseTile0
import proofs.«414299_j48155173322928_2_alg».proof.Proof.DenseTile3
import proofs.«414299_j48155173322928_2_alg».proof.Proof.GatherTile1
import proofs.«414299_j48155173322928_2_alg».proof.Proof.GatherTile4
import proofs.«414299_j48155173322928_2_alg».proof.Proof.ScatterTile2
import proofs.«414299_j48155173322928_2_alg».proof.Proof.ScatterTile5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev tcv (W : Dev nD → Valuation τ sig (Elt F)) : (c : Dev nD) → (b : Ref sig .tc) → Buf (Elt F) ((c : Thread nD τ).loc b) := fun c b => W c b

abbrev U7 : Dev nD → Valuation τ sig (Elt F) := fun c => Gen.V7 m c
def Y8 (c : Dev nD) : Valuation τ sig (Elt F) := Pipeline.withArrays spec0 c (U7 m c) fun w => (dat0 (tcv (U7 m)) c).arrAt w cfg0.N
abbrev U8 : Dev nD → Valuation τ sig (Elt F) := fun c => Function.update (U7 m c) main_v6 (Y8 m c main_v6)
def Y9 (c : Dev nD) : Valuation τ sig (Elt F) := Pipeline.withArrays spec1 c (U8 m c) fun w => (dat1 (tcv (U8 m)) c).arrAt w cfg1.N
abbrev U9 : Dev nD → Valuation τ sig (Elt F) := fun c => Function.update (U8 m c) main_v7 (Y9 m c main_v7)
abbrev U10 : Dev nD → Valuation τ sig (Elt F) := fun c => StableHlo.after hostOps2 (U9 m c)
def Y11 (c : Dev nD) : Valuation τ sig (Elt F) := Pipeline.withArrays spec2 c (U10 m c) fun w => (dat2 (tcv (U10 m)) c).arrAt w cfg2.N
abbrev U11 : Dev nD → Valuation τ sig (Elt F) := fun c => Function.update (U10 m c) main_v9 (Y11 m c main_v9)
def Y12 (c : Dev nD) : Valuation τ sig (Elt F) := Pipeline.withArrays spec3 c (U11 m c) fun w => (dat3 (tcv (U11 m)) c).arrAt w cfg3.N
abbrev U12 : Dev nD → Valuation τ sig (Elt F) := fun c => Function.update (U11 m c) main_v10 (Y12 m c main_v10)
def Y13 (c : Dev nD) : Valuation τ sig (Elt F) := Pipeline.withArrays spec4 c (U12 m c) fun w => (dat4 (tcv (U12 m)) c).arrAt w cfg4.N
abbrev U13 : Dev nD → Valuation τ sig (Elt F) := fun c => Function.update (U12 m c) main_v11 (Y13 m c main_v11)
abbrev U14 : Dev nD → Valuation τ sig (Elt F) := fun c => StableHlo.after hostOps5 (U13 m c)
def Y15 (c : Dev nD) : Valuation τ sig (Elt F) := Pipeline.withArrays spec5 c (U14 m c) fun w => (dat5 (tcv (U14 m)) c).arrAt w cfg5.N
abbrev U15 : Dev nD → Valuation τ sig (Elt F) := fun c => Function.update (U14 m c) main_v13 (Y15 m c main_v13)

def outs : Gen.Outs (F := F) := fun J r c => match J with
  | 8 => Y8 m c r | 9 => Y9 m c r | 11 => Y11 m c r | 12 => Y12 m c r | 13 => Y13 m c r | 15 => Y15 m c r | _ => U7 m c r

theorem V15_eq (c : Dev nD) : Gen.V15 m (outs m) c = U15 m c := rfl

def pdats : (p : Fin 6) → (c : Dev nD) → Dat τ (Elt F) Unit ℕ (UR sig nD τ) ℕ (cfgs p) c
  | ⟨0, _⟩ => fun c => dat0 (tcv (U7 m)) c
  | ⟨1, _⟩ => fun c => dat1 (tcv (U8 m)) c
  | ⟨2, _⟩ => fun c => dat2 (tcv (U10 m)) c
  | ⟨3, _⟩ => fun c => dat3 (tcv (U11 m)) c
  | ⟨4, _⟩ => fun c => dat4 (tcv (U12 m)) c
  | ⟨5, _⟩ => fun c => dat5 (tcv (U14 m)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem U8_out (c : Dev nD) : U8 m c main_v6 = (dat0 (tcv (U7 m)) c).arrAt 2 cfg0.N :=
  (Function.update_self ..).trans (Pipeline.withArrays_arr spec0 launch0.win.arr_inj c _ _ 2)
theorem U8_of (c : Dev nD) (r : Ref sig .tc) (h : r ≠ main_v6) : U8 m c r = U7 m c r :=
  Function.update_of_ne (StableHlo.devRef_ne_of_ne h) _ _
theorem U9_out (c : Dev nD) : U9 m c main_v7 = (dat1 (tcv (U8 m)) c).arrAt 3 cfg1.N :=
  (Function.update_self ..).trans (Pipeline.withArrays_arr spec1 launch1.win.arr_inj c _ _ 3)
theorem U9_of (c : Dev nD) (r : Ref sig .tc) (h : r ≠ main_v7) : U9 m c r = U8 m c r :=
  Function.update_of_ne (StableHlo.devRef_ne_of_ne h) _ _
theorem U11_out (c : Dev nD) : U11 m c main_v9 = (dat2 (tcv (U10 m)) c).arrAt 3 cfg2.N :=
  (Function.update_self ..).trans (Pipeline.withArrays_arr spec2 launch2.win.arr_inj c _ _ 3)
theorem U11_of (c : Dev nD) (r : Ref sig .tc) (h : r ≠ main_v9) : U11 m c r = U10 m c r :=
  Function.update_of_ne (StableHlo.devRef_ne_of_ne h) _ _
theorem U12_out (c : Dev nD) : U12 m c main_v10 = (dat3 (tcv (U11 m)) c).arrAt 2 cfg3.N :=
  (Function.update_self ..).trans (Pipeline.withArrays_arr spec3 launch3.win.arr_inj c _ _ 2)
theorem U12_of (c : Dev nD) (r : Ref sig .tc) (h : r ≠ main_v10) : U12 m c r = U11 m c r :=
  Function.update_of_ne (StableHlo.devRef_ne_of_ne h) _ _
theorem U13_out (c : Dev nD) : U13 m c main_v11 = (dat4 (tcv (U12 m)) c).arrAt 3 cfg4.N :=
  (Function.update_self ..).trans (Pipeline.withArrays_arr spec4 launch4.win.arr_inj c _ _ 3)
theorem U13_of (c : Dev nD) (r : Ref sig .tc) (h : r ≠ main_v11) : U13 m c r = U12 m c r :=
  Function.update_of_ne (StableHlo.devRef_ne_of_ne h) _ _
theorem U15_out (c : Dev nD) : U15 m c main_v13 = (dat5 (tcv (U14 m)) c).arrAt 3 cfg5.N :=
  (Function.update_self ..).trans (Pipeline.withArrays_arr spec5 launch5.win.arr_inj c _ _ 3)
theorem U15_of (c : Dev nD) (r : Ref sig .tc) (h : r ≠ main_v13) : U15 m c r = U14 m c r :=
  Function.update_of_ne (StableHlo.devRef_ne_of_ne h) _ _

-- three facts each of the six cases of `pdats` has by its definition
theorem pdats_plain : ∀ (p : Fin 6) (c : Dev nD), (∀ w, (pdats m p c).q w = fullShare) ∧ (∀ t, (pdats m p c).owed t = 0)
    ∧ ∀ x, x ∈ (pdats m p c).recorded 0
  | 0, _ | 1, _ | 2, _ | 3, _ | 4, _ | 5, _ => ⟨fun _ => rfl, fun _ => rfl, fun _ => trivial⟩

-- one step of the run, from contents V to V': V' differs from V only at the array of window o, where it holds what the step leaves there
def seg (p : Fin 6) (lf : Pipeline.LaunchFacts (nD := nD) (τ := τ) cfgs p) (V V' : Dev nD → Valuation τ sig (Elt F))
    (o : Fin (cfgs p).W) (hi : ∀ w, w ≠ o → ((cfgs p).win w).isOut = false)
    (hA : ∀ c w, (pdats m p c).A w = tcv V c (Pipeline.arrRef (cfgs p).spec w))
    (ho : ∀ c, tcv V' c (Pipeline.arrRef (cfgs p).spec o) = (pdats m p c).arrAt o (cfgs p).N)
    (hof : ∀ c r, r ≠ Pipeline.arrRef (cfgs p).spec o → tcv V' c r = tcv V c r)
    (hb : ∀ c, BodyObligation (pdats m p c) defs₀ 𝒱₀ () Set.univ)
    (hin : ∀ c, Pipeline.ΦA (cfgs p).spec c ⊢ (pdats m p c).Φ 0)
    (hout : ∀ c, (pdats m p c).Φ (Fin.last (cfgs p).N) ⊢ Pipeline.ΦA (cfgs p).spec c) :
    Pipeline.RegionSeg pcfgs adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m p c).2.1
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (cfgs p).spec c (tcv V c)
  hentry c := by
    unfold Pipeline.Dat.owesAt Pipeline.owesWithin Pipeline.prefHeld
    rw [← Pipeline.unscopedBufs_held, Pipeline.ownSems0_none, (pdats_plain m p c).2.1,
      show (Finset.univ : Finset (Fin 0)) = ∅ from rfl, BI.bigSep_empty]
    iintro ⟨⟨Hub, Hp, %W, HO⟩, -, -⟩
    ihave ⟨Ha, Hr⟩ := Pipeline.arrays_of_unscopedBufs (p := p) pcfgs adm (pdats m) lf.win lf.arr_whole c
      ((pdats m p c).share_full (pdats_plain m p c).1) (tcv V c) (hA c) $$ Hub
    imodintro
    iframe Ha Hp Hr
    isplitr; · iempintro
    iexists W; iframe HO; ipureintro; exact fun x _ => Or.inl ((pdats_plain m p c).2.2 x)
  hin c := by
    refine .trans ?_ (hin c)
    unfold Pipeline.ΦA; iintro ⟨Hp, -, Hr⟩; iframe
  hout c := by
    refine (hout c).trans ?_
    rw [Pipeline.ownSems0_none]; unfold Pipeline.ΦA; iintro ⟨Hr, Hp⟩; iframe; iempintro
  hexit c := by
    unfold Pipeline.Dat.owesAt Pipeline.owesWithin R
    rw [← Pipeline.unscopedBufs_held, (pdats_plain m p c).2.1]
    iintro ⟨Ha, ⟨%W, -, HO⟩, HY, Hr⟩
    imodintro
    iframe HY
    isplitl [Ha Hr]
    · iapply Pipeline.unscopedBufs_of_arrays (p := p) pcfgs adm lf.win lf.arr_whole c (pdats m)
        ((pdats m p c).share_full (pdats_plain m p c).1) (tcv V c) (tcv V' c) _
        (fun w => if h : w = o then h ▸ (ho c).symm else
          ((pdats m p c).arrAt_in w (hi w h) _).trans <| (hA c w).trans (hof c _ fun e => h (lf.win.arr_inj e)).symm)
        fun b hb => hof c b fun e => hb (Finset.mem_image.mpr ⟨o, Finset.mem_univ _, e.symm⟩)
      iframe
    iexists W; iexact HO

def reg0 : Pipeline.RegionSeg (pcfgs (F := F)) adm (pdats m) () defs₀ 𝒱₀ L lv 0 :=
  seg m 0 launch0 (U7 m) (U8 m) 2 (by decide) (A_eq0 _) (U8_out m) (U8_of m) (body_obligation0 _) (hin0 _) (hout0 _)
def reg1 : Pipeline.RegionSeg (pcfgs (F := F)) adm (pdats m) () defs₀ 𝒱₀ L lv 1 :=
  seg m 1 launch1 (U8 m) (U9 m) 3 (by decide) (A_eq1 _) (U9_out m) (U9_of m) (body_obligation1 _) (hin1 _) (hout1 _)
def reg2 : Pipeline.RegionSeg (pcfgs (F := F)) adm (pdats m) () defs₀ 𝒱₀ L lv 2 :=
  seg m 2 launch2 (U10 m) (U11 m) 3 (by decide) (A_eq2 _) (U11_out m) (U11_of m) (body_obligation2 _) (hin2 _) (hout2 _)
def reg3 : Pipeline.RegionSeg (pcfgs (F := F)) adm (pdats m) () defs₀ 𝒱₀ L lv 3 :=
  seg m 3 launch3 (U11 m) (U12 m) 2 (by decide) (A_eq3 _) (U12_out m) (U12_of m) (body_obligation3 _) (hin3 _) (hout3 _)
def reg4 : Pipeline.RegionSeg (pcfgs (F := F)) adm (pdats m) () defs₀ 𝒱₀ L lv 4 :=
  seg m 4 launch4 (U12 m) (U13 m) 3 (by decide) (A_eq4 _) (U13_out m) (U13_of m) (body_obligation4 _) (hin4 _) (hout4 _)
def reg5 : Pipeline.RegionSeg (pcfgs (F := F)) adm (pdats m) () defs₀ 𝒱₀ L lv 5 :=
  seg m 5 launch5 (U14 m) (U15 m) 3 (by decide) (A_eq5 _) (U15_out m) (U15_of m) (body_obligation5 _) (hin5 _) (hout5 _)

end Cert.KernelIdeal.Tiles

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev R2 (a b : Nat) : Type := (⟨2, ![a, b]⟩ : Shape).Idx → EReal

abbrev R1 (a : Nat) : Type := (⟨1, ![a]⟩ : Shape).Idx → EReal

abbrev I2 (a b : Nat) : Type := (⟨2, ![a, b]⟩ : Shape).Idx → BitVec 32

abbrev I1 (a : Nat) : Type := (⟨1, ![a]⟩ : Shape).Idx → BitVec 32

-- (x · w) (r, c) = ∑ t, x (r, t) · w (t, c)
def dense {n k m : Nat} (x : R2 n k) (w : R2 k m) : R2 n m :=
  fun i => ∑ t : Fin k, x (ix2 (i 0) t) * w (ix2 t (i 1))

-- row e = ∑ over the nodes v of [the source word of e is v] · (weight of e) · h v
def gatherK {ep n d : Nat} (srow : I2 1 ep) (arow : R2 1 ep) (h : R2 n d) : R2 ep d :=
  fun i => ∑ v : Fin n,
    (if srow (ix2 0 (i 0)) = BitVec.ofNat 32 v.val then arow (ix2 0 (i 0)) else 0) * h (ix2 v (i 1))

-- row n = ∑ over the edges e of [the destination word of e is n] · msg e
def scatterK {ep n d : Nat} (drow : I2 1 ep) (msg : R2 ep d) : R2 n d :=
  fun i => ∑ e : Fin ep,
    (if BitVec.ofNat 32 (i 0).val = drow (ix2 0 e) then (1 : EReal) else 0) * msg (ix2 e (i 1))

-- max (s + bias, 0), entry by entry
def reluBias {n d : Nat} (s : R2 n d) (brow : R2 1 d) : R2 n d :=
  fun i => max (s i + brow (ix2 0 (i 1))) 0

-- the maximum of −∞ and the row's entries
def rowMax {d : Nat} (z : Fin d → EReal) : EReal :=
  (Finset.univ : Finset (Fin d)).fold max (Ideal.ofBits .f32 0xFF800000#32) z

-- log-softmax of a row, shifted by its maximum M: (z j − M) − log ∑ j', exp (z j' − M)
def lsmRow {d : Nat} (z : Fin d → EReal) (j : Fin d) : EReal :=
  (z j - rowMax z) - Ideal.log (∑ j' : Fin d, Ideal.exp (z j' - rowMax z))

-- log-softmax along each row of s + bias
def lsmBias {n d : Nat} (s : R2 n d) (brow : R2 1 d) : R2 n d :=
  fun i => lsmRow (fun j => s (ix2 (i 0) j) + brow (ix2 0 j)) (i 1)

-- the 1600000 edge entries as one row of 1601536 = 782 · 2048; the tail holds 0 (sources, weights) or 100000 (destinations)
def srcRow (src : I1 1600000) : I2 1 1601536 :=
  fun i => if h : (i 1).val < 1600000 then src (ix1 ⟨(i 1).val, h⟩) else 0#32

def dstRow (dst : I1 1600000) : I2 1 1601536 :=
  fun i => if h : (i 1).val < 1600000 then dst (ix1 ⟨(i 1).val, h⟩) else 100000#32

def adjRow (adj : R1 1600000) : R2 1 1601536 :=
  fun i => if h : (i 1).val < 1600000 then adj (ix1 ⟨(i 1).val, h⟩) else 0

def biasRow {d : Nat} (b : R1 d) : R2 1 d := fun i => b (ix1 (i 1))

-- the node a word names: its value modulo 100000
def node (b : BitVec 32) : Fin 100000 := ⟨b.toNat % 100000, Nat.mod_lt _ (by decide)⟩

-- (A · y) n = ∑ over the edges e with destination n of (weight of e) · y (source of e)
def spmm {d : Nat} (adj : R1 1600000) (src dst : I1 1600000) (y : R2 100000 d) : R2 100000 d :=
  fun i => ∑ e : Fin 1600000,
    (if dst (ix1 e) = BitVec.ofNat 32 (i 0).val then adj (ix1 e) * y (ix2 (node (src (ix1 e))) (i 1)) else 0)

-- log_softmax (A · (relu (A · (x W1) + b1) W2) + b2)
def forward (x : R2 100000 512) (W1 : R2 512 64) (b1 : R1 64) (W2 : R2 64 40) (b2 : R1 40)
    (adj : R1 1600000) (src dst : I1 1600000) : R2 100000 40 :=
  lsmBias (spmm adj src dst (dense (reluBias (spmm adj src dst (dense x W1)) (biasRow b1)) W2)) (biasRow b2)

-- the same, each A · y written as the two indicator sums over the padded edge rows
def forwardK (x : R2 100000 512) (W1 : R2 512 64) (b1 : R1 64) (W2 : R2 64 40) (b2 : R1 40)
    (adj : R1 1600000) (src dst : I1 1600000) : R2 100000 40 :=
  lsmBias (scatterK (n := 100000) (dstRow dst) (gatherK (n := 100000) (srcRow src) (adjRow adj)
    (dense (reluBias (scatterK (n := 100000) (dstRow dst) (gatherK (n := 100000) (srcRow src) (adjRow adj) (dense x W1))) (biasRow b1)) W2))) (biasRow b2)

end Cert.Spec

end
-- ==== Proof.GatherVal.lean ====
import proofs.«414299_j48155173322928_2_alg».proof.Proof.Blocks
import proofs.«414299_j48155173322928_2_alg».proof.Proof.Spec
import Idealize.ShloMosaic.Lib.ValueLayout
import Idealize.ShloMosaic.PureOps.Ideal.Laws

noncomputable section

namespace Cert.KernelIdeal.Vals

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Tiles Cert.Spec
open scoped BigOperators

namespace Gather

-- A column broadcast along the rows reads, at (p, n), the column's entry p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (n : Fin b) :
    broadcastTo ⟨2, ![a, b]⟩ v h (ix2 p n) = v (ix2 p (0 : Fin 1)) := by
  refine broadcastTo_apply v h (ix2 p n) (ix2 p (0 : Fin 1)) fun ax => ?_
  match ax with
  | ⟨0, _⟩ =>
    show p.val = if a = 1 then 0 else p.val
    split
    · have := p.isLt; omega
    · rfl
  | ⟨1, _⟩ => rfl

-- Selecting on an equality test of two words is the if-then-else on their equality.
theorem select_eq {α : Type} {w : ℕ} (x y : BitVec w) (A B : α) :
    Scalar.select (IntOp.cmpi .eq x y) A B = if x = y then A else B := by
  by_cases h : x = y
  · rw [if_pos h, IntOp.cmpi_eq.mpr h, select_one]
  · rw [if_neg h, eq_zero_of_ne_one (mt IntOp.cmpi_eq.mp h), select_zero]

-- A rows-by-columns product into zero, at entry (p, q), is row p times column q.
theorem prod_apply {m k n : ℕ} {φ₁ φ₂ : FTy} (L : FVec Ideal ⟨2, ![m, k]⟩ φ₁) (R : FVec Ideal ⟨2, ![k, n]⟩ φ₂) (p : Fin m) (q : Fin n) :
    matmul (DotDims.plain m k n) none L R (constant ⟨2, ![m, n]⟩ .f32 0x00000000#32) (ix2 p q) = ∑ s : Fin k, L (ix2 p s) * R (ix2 s q) := by
  simp only [matmul]
  rw [Ideal.matmul_constant_zero_apply, ← Equiv.sum_comp (contrEquiv1 (DotDims.plain m k n) k rfl rfl).symm]
  refine Finset.sum_congr rfl fun s _ => ?_
  congr 2 <;> exact Shape.idx_ext₂ rfl rfl

-- The accumulating step of a selection of any width d at entry (p, q): the entry plus, over the 2000 nodes n of node block k, the weight of edge p where its source word is the node 2000 k + n, times feature q of node n of the block.
theorem pay_apply {d : ℕ} (k : ℕ) (x0 : Vec Ideal S1x2048 .i32) (x1 : Vec Ideal S1x2048 .f32) (x2 : FVec Ideal ⟨2, ![2000, d]⟩ .f32)
    (a : FVec Ideal ⟨2, ![2048, d]⟩ .f32) (c1 c2 c3 c4 tr b1 b2 io lt) (p : Fin 2048) (q : Fin d) :
    shapeCast ⟨2, ![2048, d]⟩ (addf a (matmul (DotDims.plain 2048 2000 d) none
      (truncf .bf16 (select (cmpi .eq (broadcastTo S2048x2000 (transpose S2048x1 [1, 0] (shapeCast S1x2048 x0 c1) tr) b1)
          (broadcastTo S2048x2000 (addi (broadcast S1x2000 (Scalar.muli (BitVec.ofNat 32 k) 2000#32)) (iota .tc S1x2000 32 [1] io)) b2))
        (broadcastTo S2048x2000 (shapeCast S2048x1 (transpose S2048x1 [1, 0] (shapeCast S1x2048 x1 c1) tr) c2) b1)
        (broadcast S2048x2000 (Scalar.ofBits .f32 0x00000000#32))) lt)
      (truncf .bf16 (shapeCast ⟨2, ![2000, d]⟩ x2 c3) lt) (constant ⟨2, ![2048, d]⟩ .f32 0x00000000#32))) c4 (ix2 p q)
    = a (ix2 p q) + ∑ n : Fin 2000,
      (if x0 (ix2 (0 : Fin 1) p) = BitVec.ofNat 32 (2000 * k + n.val) then x1 (ix2 (0 : Fin 1) p) else 0) * x2 (ix2 n q) := by
  simp only [shapeCast_self]
  rw [addf_apply]
  refine congrArg (a (ix2 p q) + ·) ((prod_apply _ _ p q).trans (Finset.sum_congr rfl fun n _ => ?_))
  rw [truncf_apply, truncf_apply, select_apply, broadcast_apply, broadcastTo_a1_ab_apply, transpose_ix2_apply]
  show Scalar.select (IntOp.cmpi .eq _ _) _ _ * _ = _
  rw [select_eq, broadcastTo_a1_ab_apply, transpose_ix2_apply, broadcastTo_1b_ab_apply]
  show (if _ = IntOp.addi (Scalar.muli (BitVec.ofNat 32 k) 2000#32) (iota .tc S1x2000 32 [1] io (ix2 (0 : Fin 1) n)) then _ else Ideal.ofBits .f32 0x00000000#32) * _ = _
  rw [iota_single_apply, Ideal.ofBits_zero_f32]
  show (if _ = BitVec.ofNat 32 k * BitVec.ofNat 32 2000 + BitVec.ofNat 32 n.val then _ else _) * _ = _
  rw [← BitVec.ofNat_mul, ← BitVec.ofNat_add, Nat.mul_comm]

-- A zero splat, cast to its own shape, reads zero.
theorem splat_zero {s : Shape} (h) (i : s.Idx) : shapeCast s (broadcast s (Scalar.ofBits (F := Ideal) .f32 0x00000000#32)) h i = 0 := by
  rw [shapeCast_self]
  exact Ideal.ofBits_zero_f32

-- On the grid of 782 by 50 points, point t has coordinates (t / 50, t % 50).
theorem coords (t : Fin grid1.N) : (grid1.coords t 0).val = t.val / 50 ∧ (grid1.coords t 1).val = t.val % 50 := by
  have h := Nat.lt_of_lt_of_eq t.isLt N_1
  show t.val / grid1.stride 0 % 782 = _ ∧ t.val / grid1.stride 1 % 50 = _
  rw [show grid1.stride 0 = 50 by decide, show grid1.stride 1 = 1 by decide]
  omega

-- Row p of the tile, node n of the block and column q of a block at point t, as rows and columns of the arrays (the block indices are the coordinates as 32-bit words).
theorem row (t : Fin grid1.N) (p : Fin 2048) (r : Fin 1601536) (hr : r.val = 2048 * (t.val / 50) + p.val) :
    (BitVec.ofNat 32 (grid1.coords t 0).val).toNat * 2048 + 1 * p.val = r.val := by
  have h := Nat.lt_of_lt_of_eq t.isLt N_1
  rw [BitVec.toNat_ofNat, (coords t).1, hr]
  omega
theorem node (t : Fin grid1.N) (n : Fin 2000) :
    (BitVec.ofNat 32 (grid1.coords t 1).val).toNat * 2000 + 1 * n.val = 2000 * (t.val % 50) + n.val := by
  rw [BitVec.toNat_ofNat, (coords t).2]
  omega
theorem col {n : ℕ} (m : ℕ) (q : Fin n) : 0 * m + 1 * q.val = q.val := by omega

section
variable {d : ℕ} (S : I2 1 1601536) (A : R2 1 1601536) (H : R2 100000 d)

-- Node v's term in row r, column q of the selection.
def term (r : Fin 1601536) (q : Fin d) (v : Fin 100000) : EReal :=
  (if S (ix2 0 r) = BitVec.ofNat 32 v.val then A (ix2 0 r) else 0) * H (ix2 v q)

-- The share of the s-th block of 2000 nodes in row r, column q (nothing past the 50 blocks).
def blockSum (r : Fin 1601536) (q : Fin d) (s : ℕ) : EReal :=
  if hs : s < 50 then ∑ n : Fin 2000, term S A H r q ⟨2000 * s + n.val, by have := n.isLt; omega⟩ else 0

-- The 100000 nodes are 50 blocks of 2000, so the 50 shares add up to the row of the selection.
theorem sum_blockSum {S A H} (r : Fin 1601536) (q : Fin d) :
    ∑ s ∈ Finset.range 50, blockSum S A H r q s = gatherK S A H (ix2 r q) := by
  rw [Finset.sum_range]
  refine (Finset.sum_congr rfl fun s _ => dif_pos s.isLt).trans ?_
  rw [← Fintype.sum_prod_type']
  refine (Finset.sum_congr rfl fun x _ => ?_).trans
    (Equiv.sum_comp (finProdFinEquiv : Fin 50 × Fin 2000 ≃ Fin (50 * 2000)) (term S A H r q))
  exact congrArg _ (Fin.ext (Nat.add_comm _ _))

variable {S A H} {N : ℕ} (F : Fin N → R2 2048 d → R2 2048 d) (Z : R2 2048 d) (acc : (n : ℕ) → n < N → R2 2048 d)
  (hfirst : ∀ t : Fin N, t.val % 50 = 0 → acc t.val t.isLt = F t Z)
  (hnext : ∀ t : Fin N, (h : t.val % 50 ≠ 0) → acc t.val t.isLt = F t (acc (t.val - 1) (by omega)))
  (hZ : ∀ i, Z i = 0)
  (hF : ∀ (t : Fin N) (a : R2 2048 d) (p : Fin 2048) (q : Fin d) (r : Fin 1601536), r.val = 2048 * (t.val / 50) + p.val →
    F t a (ix2 p q) = a (ix2 p q) + blockSum S A H r q (t.val % 50))

include hfirst hnext hZ hF in
-- Starting a row of the grid from zero and adding one block's share per point, after block k the entry holds the shares of blocks 0 to k.
theorem run (p : Fin 2048) (q : Fin d) (r : Fin 1601536) :
    ∀ (k t : ℕ) (h : t < N), t % 50 = k → r.val = 2048 * (t / 50) + p.val →
      acc t h (ix2 p q) = ∑ s ∈ Finset.range (k + 1), blockSum S A H r q s
  | 0, t, h, hk, hr => by
    refine (congrFun (hfirst ⟨t, h⟩ hk) _).trans ((hF ⟨t, h⟩ Z p q r hr).trans ?_)
    rw [hZ, zero_add, Finset.sum_range_one]
    exact congrArg _ hk
  | k + 1, t, h, hk, hr => by
    refine (congrFun (hnext ⟨t, h⟩ (by show t % 50 ≠ 0; omega)) _).trans ((hF ⟨t, h⟩ _ p q r hr).trans ?_)
    rw [run p q r k (t - 1) (by omega) (by omega) (by omega), Finset.sum_range_succ _ (k + 1)]
    exact congrArg _ (congrArg _ hk)

end

end Gather

namespace Gather1

open Gather

variable (V : (c : Dev nD) → (b : Ref sig .tc) → Buf (Elt Ideal) ((c : Thread nD τ).loc b)) (c : Dev nD)

-- At point t the step adds, at entry (p, q), the share of node block t % 50 in row 2048 (t / 50) + p: the three blocks it reads are rectangles of the arrays.
theorem step (t : Fin cfg1.N) (a : Vec Ideal S2048x64 .f32) (p : Fin 2048) (q : Fin 64) (r : Fin 1601536)
    (hr : r.val = 2048 * (t.val / 50) + p.val) :
    k1_pay2 (grid1.coords t) (iblk1 V c 0 t) (iblk1 V c 1 t) (iblk1 V c 2 t) a (ix2 p q)
      = a (ix2 p q) + blockSum (V c main_v3) (V c main_v5) (V c main_v6) r q (t.val % 50) := by
  have h0 : (iblk1 V c 0 t : Vec Ideal S1x2048 .i32) (ix2 0 p) = V c main_v3 (ix2 0 r) :=
    congrArg (V c main_v3) (Shape.idx_ext₂ rfl (row t p r hr))
  have h1 : (iblk1 V c 1 t : Vec Ideal S1x2048 .f32) (ix2 0 p) = V c main_v5 (ix2 0 r) :=
    congrArg (V c main_v5) (Shape.idx_ext₂ rfl (row t p r hr))
  have h2 : ∀ n : Fin 2000, (iblk1 V c 2 t : Vec Ideal S2000x64 .f32) (ix2 n q)
      = V c main_v6 (ix2 ⟨2000 * (t.val % 50) + n.val, by have := n.isLt; omega⟩ q) :=
    fun n => congrArg (V c main_v6) (Shape.idx_ext₂ (node t n) (col 64 q))
  refine (pay_apply (grid1.coords t 1).val _ _ _ a _ _ _ _ _ _ _ _ _ p q).trans ?_
  rw [h0, h1, (coords t).2]
  unfold blockSum
  rw [dif_pos (Nat.mod_lt _ (by decide))]
  exact congrArg _ (Finset.sum_congr rfl fun n _ => by rw [h2]; rfl)

-- Entry (p, q) of the messages' block at point t is entry (2048 (t / 50) + p, q) of the messages' array.
theorem outBlk_emb (t : Fin cfg1.N) (p : Fin 2048) (q : Fin 64) (r : Fin 1601536) (hr : r.val = 2048 * (t.val / 50) + p.val) :
    ((cfg1.win 3).blk t).view.emb (ix2 p q : S2048x64.Idx) = (ix2 r q : S1601536x64.Idx) :=
  Shape.idx_ext₂ (row t p r hr) (col 64 q)

end Gather1

open Gather Gather1 in
-- The messages' array ends as the selection: at the last of a tile's 50 points the accumulator holds the whole sums of the tile's 2048 rows, and the 782 tiles cover all rows.
theorem gather1_val_of (V : (c : Dev nD) → (b : Ref sig .tc) → Buf (Elt Ideal) ((c : Thread nD τ).loc b)) (c : Dev nD)
    (dat : Dat τ (Elt Ideal) Unit ℕ (UR sig nD τ) ℕ cfg1 c) (hA : ∀ w, dat.A w = V c (Pipeline.arrRef spec1 w))
    (acc : (n : ℕ) → n < cfg1.N → Vec Ideal S2048x64 .f32)
    (hfirst : ∀ t : Fin cfg1.N, t.val % 50 = 0 → acc t.val t.isLt = k1_pay2 (grid1.coords t) (iblk1 V c 0 t) (iblk1 V c 1 t) (iblk1 V c 2 t) (k1_pay1 (F := Ideal)))
    (hnext : ∀ t : Fin cfg1.N, (h : t.val % 50 ≠ 0) → acc t.val t.isLt = k1_pay2 (grid1.coords t) (iblk1 V c 0 t) (iblk1 V c 1 t) (iblk1 V c 2 t) (acc (t.val - 1) (by omega)))
    (hout : ∀ t : Fin cfg1.N, t.val % 50 = 49 → dat.after 3 t = acc t.val t.isLt) :
    dat.arrAt 3 cfg1.N = (gatherK (V c main_v3) (V c main_v5) (V c main_v6) : R2 1601536 64) := by
  refine dat.arrAt_eq_of_cover 3 _ (fun t hf => ?_) (fun i => ?_)
  · have h49 : t.val % 50 = 49 := (flush1_3 t).mp hf
    have ht := Nat.lt_of_lt_of_eq t.isLt N_1
    show (cfg1.win 3).cut (grid1.coords t) (dat.after 3 t) = _
    rw [hout t h49]
    generalize hG : (gatherK (V c main_v3) (V c main_v5) (V c main_v6) : R2 1601536 64) = G
    funext j
    obtain ⟨p, q, rfl⟩ : ∃ (p : Fin 2048) (q : Fin 64), j = ix2 p q := ⟨j 0, j 1, eq_ix2 j⟩
    obtain ⟨r, hr⟩ : ∃ r : Fin 1601536, r.val = 2048 * (t.val / 50) + p.val := ⟨⟨_, by have := p.isLt; omega⟩, rfl⟩
    rw [View.read_apply, outBlk_emb t p q r hr]
    show acc t.val t.isLt (ix2 p q) = G (ix2 r q)
    rw [← hG]
    exact (run _ _ acc hfirst hnext (splat_zero _) (step V c) p q r 49 t.val t.isLt h49 hr).trans (sum_blockSum r q)
  · have hi := idx2_lt0 i
    have hlt : 50 * ((i 0).val / 2048) + 49 < cfg1.N := Nat.lt_of_lt_of_eq (by omega) N_1.symm
    exact ⟨⟨_, hlt⟩, (flush1_3 _).mpr (by show (50 * ((i 0).val / 2048) + 49) % 50 = 49; omega),
      Finset.mem_map.mpr ⟨ix2 ⟨(i 0).val % 2048, Nat.mod_lt _ (by decide)⟩ (i 1), Finset.mem_univ _,
        (outBlk_emb ⟨_, hlt⟩ _ _ (i 0) (by
          show (i 0).val = 2048 * ((50 * ((i 0).val / 2048) + 49) / 50) + (i 0).val % 2048; omega)).trans (eq_ix2 i).symm⟩⟩

end Cert.KernelIdeal.Vals

end
-- ==== Proof.DenseVal.lean ====
import proofs.«414299_j48155173322928_2_alg».proof.Proof.GatherVal

noncomputable section

namespace Cert.KernelIdeal.Vals

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Tiles Cert.Spec
open scoped BigOperators

namespace Dense

-- Where row p of the block at point t sits in the arrays, the block index being the point's one coordinate as a 32-bit word.
theorem row (t : Fin grid0.N) (p : Fin 2000) (r : Fin 100000) (hr : r.val = 2000 * t.val + p.val) :
    (BitVec.ofNat 32 (grid0.coords t 0).val).toNat * 2000 + 1 * p.val = r.val := by
  have h := Nat.lt_of_lt_of_eq t.isLt N_0
  rw [BitVec.toNat_ofNat, hr]
  show t.val / grid0.stride 0 % 50 % 2 ^ 32 * 2000 + 1 * p.val = _
  rw [show grid0.stride 0 = 1 by decide]
  omega

end Dense

namespace Dense0

open Gather Dense

variable (V : (c : Dev nD) → (b : Ref sig .tc) → Buf (Elt Ideal) ((c : Thread nD τ).loc b)) (c : Dev nD)

-- What point t leaves at entry (p, q) is entry (2000 t + p, q) of the product of the two arrays: its left block is rows 2000 t … of the left array, its right block the whole right array.
theorem out_apply (t : Fin cfg0.N) (p : Fin 2000) (q : Fin 64) (r : Fin 100000) (hr : r.val = 2000 * t.val + p.val) :
    k0_pay1 (iblk0 V c 0 t) (iblk0 V c 1 t) (ix2 p q) = (dense (V c main_arg0) (V c main_arg1) : R2 100000 64) (ix2 r q) := by
  unfold k0_pay1
  refine (prod_apply _ _ p q).trans (Finset.sum_congr rfl fun s _ => ?_)
  exact congrArg₂ (· * ·) (congrArg (V c main_arg0) (Shape.idx_ext₂ (row t p r hr) (col 512 s)))
    (congrArg (V c main_arg1) (Shape.idx_ext₂ (col 512 s) (col 64 q)))

-- Entry (p, q) of the result's block at point t is entry (2000 t + p, q) of the result array.
theorem out_emb (t : Fin cfg0.N) (p : Fin 2000) (q : Fin 64) (r : Fin 100000) (hr : r.val = 2000 * t.val + p.val) :
    ((cfg0.win 2).blk t).view.emb (ix2 p q : S2000x64.Idx) = (ix2 r q : S100000x64.Idx) :=
  Shape.idx_ext₂ (row t p r hr) (col 64 q)

end Dense0

open Dense0 in
-- The 50 blocks of 2000 rows cover the array, so the result array is the product, entry by entry.
theorem dense0_val_of (V : (c : Dev nD) → (b : Ref sig .tc) → Buf (Elt Ideal) ((c : Thread nD τ).loc b)) (c : Dev nD) (dat : Dat τ (Elt Ideal) Unit ℕ (UR sig nD τ) ℕ cfg0 c) (hA : ∀ w, dat.A w = V c (Pipeline.arrRef spec0 w))
    (hout : ∀ t, dat.after 2 t = k0_pay1 (iblk0 V c 0 t) (iblk0 V c 1 t)) :
    dat.arrAt 2 cfg0.N = (dense (V c main_arg0) (V c main_arg1) : R2 100000 64) := by
  refine dat.arrAt_eq_of_cover 2 _ (fun t _ => ?_) (fun i => ?_)
  · show (cfg0.win 2).cut (grid0.coords t) (dat.after 2 t) = _
    rw [hout]
    funext j
    obtain ⟨p, q, rfl⟩ : ∃ (p : Fin 2000) (q : Fin 64), j = ix2 p q := ⟨j 0, j 1, eq_ix2 j⟩
    have ht := Nat.lt_of_lt_of_eq t.isLt N_0
    obtain ⟨r, hr⟩ : ∃ r : Fin 100000, r.val = 2000 * t.val + p.val := ⟨⟨_, by have := p.isLt; omega⟩, rfl⟩
    rw [View.read_apply, out_emb t p q r hr]
    exact out_apply V c t p q r hr
  · have hi := idx2_lt0 i
    have hlt : (i 0).val / 2000 < cfg0.N := Nat.lt_of_lt_of_eq (by omega) N_0.symm
    exact ⟨⟨_, hlt⟩, flush0_2 _, Finset.mem_map.mpr ⟨ix2 ⟨(i 0).val % 2000, Nat.mod_lt _ (by decide)⟩ (i 1), Finset.mem_univ _,
      (out_emb ⟨_, hlt⟩ _ _ (i 0) (by show (i 0).val = 2000 * ((i 0).val / 2000) + (i 0).val % 2000; omega)).trans (eq_ix2 i).symm⟩⟩

namespace Dense3

open Gather Dense

variable (V : (c : Dev nD) → (b : Ref sig .tc) → Buf (Elt Ideal) ((c : Thread nD τ).loc b)) (c : Dev nD)

-- The same for the second product, of rows of 40 from rows of 64.
theorem out_apply (t : Fin cfg3.N) (p : Fin 2000) (q : Fin 40) (r : Fin 100000) (hr : r.val = 2000 * t.val + p.val) :
    k3_pay1 (iblk3 V c 0 t) (iblk3 V c 1 t) (ix2 p q) = (dense (V c main_v9) (V c main_arg3) : R2 100000 40) (ix2 r q) := by
  unfold k3_pay1
  rw [shapeCast_self]
  refine (prod_apply _ _ p q).trans (Finset.sum_congr rfl fun s _ => ?_)
  exact congrArg₂ (· * ·) (congrArg (V c main_v9) (Shape.idx_ext₂ (row t p r hr) (col 64 s)))
    (congrArg (V c main_arg3) (Shape.idx_ext₂ (col 64 s) (col 40 q)))

theorem out_emb (t : Fin cfg3.N) (p : Fin 2000) (q : Fin 40) (r : Fin 100000) (hr : r.val = 2000 * t.val + p.val) :
    ((cfg3.win 2).blk t).view.emb (ix2 p q : S2000x40.Idx) = (ix2 r q : S100000x40.Idx) :=
  Shape.idx_ext₂ (row t p r hr) (col 40 q)

end Dense3

open Dense3 in
-- The second product's result array likewise.
theorem dense3_val_of (V : (c : Dev nD) → (b : Ref sig .tc) → Buf (Elt Ideal) ((c : Thread nD τ).loc b)) (c : Dev nD) (dat : Dat τ (Elt Ideal) Unit ℕ (UR sig nD τ) ℕ cfg3 c) (hA : ∀ w, dat.A w = V c (Pipeline.arrRef spec3 w))
    (hout : ∀ t, dat.after 2 t = k3_pay1 (iblk3 V c 0 t) (iblk3 V c 1 t)) :
    dat.arrAt 2 cfg3.N = (dense (V c main_v9) (V c main_arg3) : R2 100000 40) := by
  refine dat.arrAt_eq_of_cover 2 _ (fun t _ => ?_) (fun i => ?_)
  · show (cfg3.win 2).cut (grid3.coords t) (dat.after 2 t) = _
    rw [hout]
    funext j
    obtain ⟨p, q, rfl⟩ : ∃ (p : Fin 2000) (q : Fin 40), j = ix2 p q := ⟨j 0, j 1, eq_ix2 j⟩
    have ht := Nat.lt_of_lt_of_eq t.isLt N_3
    obtain ⟨r, hr⟩ : ∃ r : Fin 100000, r.val = 2000 * t.val + p.val := ⟨⟨_, by have := p.isLt; omega⟩, rfl⟩
    rw [View.read_apply, out_emb t p q r hr]
    exact out_apply V c t p q r hr
  · have hi := idx2_lt0 i
    have hlt : (i 0).val / 2000 < cfg3.N := Nat.lt_of_lt_of_eq (by omega) N_3.symm
    exact ⟨⟨_, hlt⟩, flush3_2 _, Finset.mem_map.mpr ⟨ix2 ⟨(i 0).val % 2000, Nat.mod_lt _ (by decide)⟩ (i 1), Finset.mem_univ _,
      (out_emb ⟨_, hlt⟩ _ _ (i 0) (by show (i 0).val = 2000 * ((i 0).val / 2000) + (i 0).val % 2000; omega)).trans (eq_ix2 i).symm⟩⟩

end Cert.KernelIdeal.Vals

end
-- ==== Proof.GatherVal4.lean ====
import proofs.«414299_j48155173322928_2_alg».proof.Proof.GatherVal

noncomputable section

namespace Cert.KernelIdeal.Vals

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Tiles Cert.Spec
open scoped BigOperators

namespace Gather4

open Gather

variable (V : (c : Dev nD) → (b : Ref sig .tc) → Buf (Elt Ideal) ((c : Thread nD τ).loc b)) (c : Dev nD)

-- At point t the step adds, at entry (p, q), the share of node block t % 50 in row 2048 (t / 50) + p: the three blocks it reads are rectangles of the arrays.
theorem step (t : Fin cfg4.N) (a : Vec Ideal S2048x40 .f32) (p : Fin 2048) (q : Fin 40) (r : Fin 1601536)
    (hr : r.val = 2048 * (t.val / 50) + p.val) :
    k4_pay2 (grid4.coords t) (iblk4 V c 0 t) (iblk4 V c 1 t) (iblk4 V c 2 t) a (ix2 p q)
      = a (ix2 p q) + blockSum (V c main_v3) (V c main_v5) (V c main_v10) r q (t.val % 50) := by
  have h0 : (iblk4 V c 0 t : Vec Ideal S1x2048 .i32) (ix2 0 p) = V c main_v3 (ix2 0 r) :=
    congrArg (V c main_v3) (Shape.idx_ext₂ rfl (row t p r hr))
  have h1 : (iblk4 V c 1 t : Vec Ideal S1x2048 .f32) (ix2 0 p) = V c main_v5 (ix2 0 r) :=
    congrArg (V c main_v5) (Shape.idx_ext₂ rfl (row t p r hr))
  have h2 : ∀ n : Fin 2000, (iblk4 V c 2 t : Vec Ideal S2000x40 .f32) (ix2 n q)
      = V c main_v10 (ix2 ⟨2000 * (t.val % 50) + n.val, by have := n.isLt; omega⟩ q) :=
    fun n => congrArg (V c main_v10) (Shape.idx_ext₂ (node t n) (col 40 q))
  refine (pay_apply (grid4.coords t 1).val _ _ _ a _ _ _ _ _ _ _ _ _ p q).trans ?_
  rw [h0, h1, (coords t).2]
  unfold blockSum
  rw [dif_pos (Nat.mod_lt _ (by decide))]
  exact congrArg _ (Finset.sum_congr rfl fun n _ => by rw [h2]; rfl)

-- Entry (p, q) of the messages' block at point t is entry (2048 (t / 50) + p, q) of the messages' array.
theorem outBlk_emb (t : Fin cfg4.N) (p : Fin 2048) (q : Fin 40) (r : Fin 1601536) (hr : r.val = 2048 * (t.val / 50) + p.val) :
    ((cfg4.win 3).blk t).view.emb (ix2 p q : S2048x40.Idx) = (ix2 r q : S1601536x40.Idx) :=
  Shape.idx_ext₂ (row t p r hr) (col 40 q)

end Gather4

open Gather Gather4 in
-- The messages' array ends as the selection: at the last of a tile's 50 points the accumulator holds the whole sums of the tile's 2048 rows, and the 782 tiles cover all rows.
theorem gather4_val_of (V : (c : Dev nD) → (b : Ref sig .tc) → Buf (Elt Ideal) ((c : Thread nD τ).loc b)) (c : Dev nD)
    (dat : Dat τ (Elt Ideal) Unit ℕ (UR sig nD τ) ℕ cfg4 c) (hA : ∀ w, dat.A w = V c (Pipeline.arrRef spec4 w))
    (acc : (n : ℕ) → n < cfg4.N → Vec Ideal S2048x40 .f32)
    (hfirst : ∀ t : Fin cfg4.N, t.val % 50 = 0 → acc t.val t.isLt = k4_pay2 (grid4.coords t) (iblk4 V c 0 t) (iblk4 V c 1 t) (iblk4 V c 2 t) (k4_pay1 (F := Ideal)))
    (hnext : ∀ t : Fin cfg4.N, (h : t.val % 50 ≠ 0) → acc t.val t.isLt = k4_pay2 (grid4.coords t) (iblk4 V c 0 t) (iblk4 V c 1 t) (iblk4 V c 2 t) (acc (t.val - 1) (by omega)))
    (hout : ∀ t : Fin cfg4.N, t.val % 50 = 49 → dat.after 3 t = acc t.val t.isLt) :
    dat.arrAt 3 cfg4.N = (gatherK (V c main_v3) (V c main_v5) (V c main_v10) : R2 1601536 40) := by
  refine dat.arrAt_eq_of_cover 3 _ (fun t hf => ?_) (fun i => ?_)
  · have h49 : t.val % 50 = 49 := (flush4_3 t).mp hf
    have ht := Nat.lt_of_lt_of_eq t.isLt N_4
    show (cfg4.win 3).cut (grid4.coords t) (dat.after 3 t) = _
    rw [hout t h49]
    generalize hG : (gatherK (V c main_v3) (V c main_v5) (V c main_v10) : R2 1601536 40) = G
    funext j
    obtain ⟨p, q, rfl⟩ : ∃ (p : Fin 2048) (q : Fin 40), j = ix2 p q := ⟨j 0, j 1, eq_ix2 j⟩
    obtain ⟨r, hr⟩ : ∃ r : Fin 1601536, r.val = 2048 * (t.val / 50) + p.val := ⟨⟨_, by have := p.isLt; omega⟩, rfl⟩
    rw [View.read_apply, outBlk_emb t p q r hr]
    show acc t.val t.isLt (ix2 p q) = G (ix2 r q)
    rw [← hG]
    exact (run _ _ acc hfirst hnext (splat_zero _) (step V c) p q r 49 t.val t.isLt h49 hr).trans (sum_blockSum r q)
  · have hi := idx2_lt0 i
    have hlt : 50 * ((i 0).val / 2048) + 49 < cfg4.N := Nat.lt_of_lt_of_eq (by omega) N_4.symm
    exact ⟨⟨_, hlt⟩, (flush4_3 _).mpr (by show (50 * ((i 0).val / 2048) + 49) % 50 = 49; omega),
      Finset.mem_map.mpr ⟨ix2 ⟨(i 0).val % 2048, Nat.mod_lt _ (by decide)⟩ (i 1), Finset.mem_univ _,
        (outBlk_emb ⟨_, hlt⟩ _ _ (i 0) (by
          show (i 0).val = 2048 * ((50 * ((i 0).val / 2048) + 49) / 50) + (i 0).val % 2048; omega)).trans (eq_ix2 i).symm⟩⟩

end Cert.KernelIdeal.Vals

end
-- ==== Proof.ScatterVal.lean ====
import proofs.«414299_j48155173322928_2_alg».proof.Proof.Blocks
import proofs.«414299_j48155173322928_2_alg».proof.Proof.Spec
import Idealize.ShloMosaic.Lib.ValueLayout
import Idealize.ShloMosaic.Lib.IdealHost

set_option synthInstance.maxSize 4096

noncomputable section

namespace Cert.KernelIdeal.Vals

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Tiles
open Cert.Spec
open scoped BigOperators

namespace Scatter

/-- A column repeated along a second axis reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

/-- 2000·a + p formed on 32-bit words is the word of the number 2000·a + p. -/
theorem node_word (a p : ℕ) : IntOp.addi (IntOp.muli (BitVec.ofNat 32 a) 2000#32) (BitVec.ofNat 32 p) = BitVec.ofNat 32 (2000 * a + p) := by
  show BitVec.ofNat 32 a * 2000#32 + BitVec.ofNat 32 p = _
  apply BitVec.eq_of_toNat_eq
  simp only [BitVec.toNat_add, BitVec.toNat_mul, BitVec.toNat_ofNat]
  omega

/-- Entry (p, q) of a [2000, 2048] by [2048, d] product added to zero is the sum over the 2048 inner positions. -/
theorem mm_apply {d : ℕ} (l : FVec Ideal ⟨2, ![2000, 2048]⟩ .bf16) (r : FVec Ideal ⟨2, ![2048, d]⟩ .bf16) (p : Fin 2000) (q : Fin d) :
    matmul (DotDims.plain 2000 2048 d) none l r (constant ⟨2, ![2000, d]⟩ .f32 0x00000000#32) (ix2 p q)
      = ∑ j : Fin 2048, l (ix2 p j) * r (ix2 j q) := by
  simp only [matmul]
  rw [Ideal.matmul_constant_zero_apply, ← Equiv.sum_comp (contrEquiv1 (DotDims.plain 2000 2048 d) 2048 rfl rfl).symm]
  refine Finset.sum_congr rfl fun k _ => ?_
  have hk := contrEquiv1_symm_val (DotDims.plain 2000 2048 d) 2048 rfl rfl k
  exact congrArg₂ (· * ·) (congrArg l (Shape.idx_ext₂ rfl hk)) (congrArg r (Shape.idx_ext₂ hk rfl))

/-- Adding to a the product of the 0/1 matrix (row p, column j is 1 exactly when word j names node 2000·o + p) with x1 adds, at (p, q), the rows of x1 whose word names that node. -/
theorem step_apply {d : ℕ} (o : ℕ) (x0 : Vec Ideal S1x2048 .i32) (x1 : Vec Ideal ⟨2, ![2048, d]⟩ .f32) (a : Vec Ideal ⟨2, ![2000, d]⟩ .f32)
    (hi : S2000x1.Iotas .tc 32 [0]) (hb : S2000x1.Broadcasts S2000x2048) (hb' : S1x2048.Broadcasts S2000x2048)
    (hl : FTy.bf16.bits < FTy.f32.bits) (p : Fin 2000) (q : Fin d) :
    addf a (matmul (DotDims.plain 2000 2048 d) none
      (truncf .bf16 (select (cmpi .eq (broadcastTo S2000x2048 (addi (broadcast S2000x1 (Scalar.muli (BitVec.ofNat 32 o) 2000#32))
          (iota .tc S2000x1 32 [0] hi)) hb) (broadcastTo S2000x2048 x0 hb'))
        (broadcast S2000x2048 (Scalar.ofBits (F := Ideal) .f32 0x3F800000#32)) (broadcast S2000x2048 (Scalar.ofBits .f32 0x00000000#32))) hl)
      (truncf .bf16 x1 hl) (constant ⟨2, ![2000, d]⟩ .f32 0x00000000#32)) (ix2 p q)
      = a (ix2 p q) + ∑ j : Fin 2048,
          (if BitVec.ofNat 32 (2000 * o + p.val) = x0 (ix2 0 j) then (1 : EReal) else 0) * x1 (ix2 j q) := by
  rw [addf_apply, mm_apply]
  refine congrArg (a (ix2 p q) + ·) (Finset.sum_congr rfl fun j _ => ?_)
  rw [truncf_apply, truncf_apply, select_apply, broadcast_apply, broadcast_apply]
  show Scalar.select (IntOp.cmpi .eq (broadcastTo S2000x2048 _ _ (ix2 p j)) (broadcastTo S2000x2048 x0 _ (ix2 p j))) _ _ * _ = _
  rw [broadcastTo_a1_ab_apply, broadcastTo_1b_ab_apply]
  show Scalar.select (IntOp.cmpi .eq (IntOp.addi (IntOp.muli _ _) (iota .tc S2000x1 32 [0] _ (ix2 p (0 : Fin 1)))) _) _ _ * _ = _
  rw [iota_single_apply, node_word]
  unfold Scalar.select
  show (if IntOp.cmpi .eq (BitVec.ofNat 32 (2000 * o + p.val)) _ = 1#1 then Ideal.ofBits .f32 0x3F800000#32 else Ideal.ofBits .f32 0x00000000#32) * _ = _
  rw [if_congr IntOp.cmpi_eq rfl rfl, Ideal.ofBits_one_f32, Ideal.ofBits_zero_f32]

/-- Edge j of edge tile s % 782. -/
def edgeN (s : ℕ) (j : Fin 2048) : Fin 1601536 :=
  ⟨2048 * (s % 782) + j.val, by have := j.isLt; have := Nat.mod_lt s (show 0 < 782 by decide); omega⟩

/-- What edge tile s adds to entry (r, q) of the summation. -/
def tileSum {d : ℕ} (D : I2 1 1601536) (M : R2 1601536 d) (r s : ℕ) (q : Fin d) : EReal :=
  ∑ j : Fin 2048, (if BitVec.ofNat 32 r = D (ix2 0 (edgeN s j)) then (1 : EReal) else 0) * M (ix2 (edgeN s j) q)

/-- The 782 tiles of 2048 edges are the 1601536 edges, so the tiles' sums add up to the summation. -/
theorem sum_tiles {d : ℕ} (D : I2 1 1601536) (M : R2 1601536 d) (r : Fin 100000) (q : Fin d) :
    ∑ s ∈ Finset.range 782, tileSum D M r.val s q = (scatterK D M : R2 100000 d) (ix2 r q) := by
  rw [Finset.sum_range]
  symm
  show ∑ e : Fin 1601536, (if BitVec.ofNat 32 r.val = D (ix2 0 e) then (1 : EReal) else 0) * M (ix2 e q) = _
  rw [← Equiv.sum_comp (finProdFinEquiv : Fin 782 × Fin 2048 ≃ Fin 1601536), Fintype.sum_prod_type]
  refine Finset.sum_congr rfl fun s _ => Finset.sum_congr rfl fun j _ => ?_
  rw [show (finProdFinEquiv (s, j) : Fin 1601536) = edgeN s.val j from Fin.ext (by
    show j.val + 2048 * s.val = 2048 * (s.val % 782) + j.val
    rw [Nat.mod_eq_of_lt s.isLt]; omega)]

/-- An accumulator that restarts from z = 0 at the multiples of 782 and at point t adds tile t % 782 for the nodes of row block t / 782 holds, at the block's last point, the summation's rows of that block. -/
theorem acc_last {d N : ℕ} (D : I2 1 1601536) (M : R2 1601536 d) (z : R2 2000 d) (hz : ∀ i, z i = 0)
    (step : Fin N → R2 2000 d → R2 2000 d)
    (hstep : ∀ (t : Fin N) a i, step t a i = a i + tileSum D M (2000 * (t.val / 782) + (i 0).val) (t.val % 782) (i 1))
    (acc : (n : ℕ) → n < N → R2 2000 d)
    (hfirst : ∀ t : Fin N, t.val % 782 = 0 → acc t.val t.isLt = step t z)
    (hnext : ∀ t : Fin N, (h : t.val % 782 ≠ 0) → acc t.val t.isLt = step t (acc (t.val - 1) (by omega)))
    (t : Fin N) (ht : t.val % 782 = 781) (p : Fin 2000) (q : Fin d) (hr : 2000 * (t.val / 782) + p.val < 100000) :
    acc t.val t.isLt (ix2 p q) = (scatterK D M : R2 100000 d) (ix2 ⟨2000 * (t.val / 782) + p.val, hr⟩ q) := by
  have h' : 782 * (t.val / 782) + t.val % 782 < N := (Nat.div_add_mod t.val 782).symm ▸ t.isLt
  have e1 := Pipeline.eq_accAt_of_mod acc 782 (fun n h => step ⟨n, h⟩ z) (fun n h x => step ⟨n, h⟩ x)
    (fun n h hn => hfirst ⟨n, h⟩ hn) (fun n h hn => hnext ⟨n + 1, h⟩ hn) (by decide) t.val t.isLt h'
  have e2 := Pipeline.accAt_add_apply (fun n h => step ⟨n, h⟩ z) (fun n h x => step ⟨n, h⟩ x) (fun _ => 0)
    (fun n i => tileSum D M (2000 * (n / 782) + (i 0).val) (n % 782) (i 1)) (782 * (t.val / 782)) 781
    (fun h i => by rw [hstep, hz]) (fun n h x i _ _ => hstep ⟨n, h⟩ x i) (t.val % 782) (by omega) h' (ix2 p q)
  rw [e1, e2, zero_add, ht, ← sum_tiles D M ⟨_, hr⟩ q]
  refine Finset.sum_congr rfl fun s hs => ?_
  have := Finset.mem_range.mp hs
  show tileSum D M (2000 * ((782 * (t.val / 782) + s) / 782) + p.val) ((782 * (t.val / 782) + s) % 782) q = _
  rw [show (782 * (t.val / 782) + s) / 782 = t.val / 782 by omega, show (782 * (t.val / 782) + s) % 782 = s by omega]

/-- Row r lies in row block r / 2000, whose last point is 782·(r / 2000) + 781. -/
theorem last_pt (r : ℕ) (h : r < 100000) :
    ∃ t, t < 39100 ∧ t % 782 = 781 ∧ t / 782 * 2000 ≤ r ∧ r < t / 782 * 2000 + 2000 :=
  ⟨782 * (r / 2000) + 781, by omega, by omega, by omega, by omega⟩

/-- The splat of the zero word is 0 at every index. -/
theorem zero_apply {s : Shape} (h : s.ShapeCasts s) (i : s.Idx) :
    shapeCast s (broadcast s (Scalar.ofBits (F := Ideal) .f32 0x00000000#32)) h i = 0 := by
  rw [shapeCast_self]
  exact Ideal.ofBits_zero_f32

/-- The first stage closes with max(a + b, 0) at every entry. -/
theorem pay3_64_apply (a : Vec Ideal S2000x64 .f32) (b : Vec Ideal S1x64 .f32) (p : Fin 2000) (q : Fin 64) :
    k2_pay3 a b (ix2 p q) = max (a (ix2 p q) + b (ix2 0 q)) 0 := by
  unfold k2_pay3
  simp only [shapeCast_self]
  rw [maximumf_apply, addf_apply, broadcastTo_1b_ab_apply, broadcast_apply]
  show max _ (Ideal.ofBits .f32 0x00000000#32) = _
  rw [Ideal.ofBits_zero_f32]

section Blocks64

variable (V : (c : Dev nD) → (b : Ref sig .tc) → Buf (Elt Ideal) ((c : Thread nD τ).loc b))

/-- Point t of the 50 × 782 grid has leading coordinate t / 782; there the words and the messages are read at edge tile t % 782 and the result is written at row block t / 782. -/
theorem idx2 (t : Fin cfg2.N) : (grid2.coords t 0).val = t.val / 782 ∧
    win2_0.index t 1 = t.val % 782 ∧ win2_1.index t 0 = t.val % 782 ∧ win2_3.index t 0 = t.val / 782 := by
  have hN := t.isLt.trans_eq N_2
  have c0 : (grid2.coords t 0).val = t.val / 782 := by
    show t.val / grid2.stride 0 % 50 = _
    rw [show grid2.stride 0 = 782 by decide]
    omega
  have c1 : (BitVec.ofNat 32 (grid2.coords t 1).val).toNat = t.val % 782 := by
    show (BitVec.ofNat 32 (t.val / grid2.stride 1 % 782)).toNat = _
    rw [show grid2.stride 1 = 1 by decide, BitVec.toNat_ofNat]
    omega
  refine ⟨c0, c1, c1, ?_⟩
  show (BitVec.ofNat 32 (grid2.coords t 0).val).toNat = _
  rw [c0, BitVec.toNat_ofNat]
  omega

/-- The destination words read at point t are those of edge tile t % 782. -/
theorem blk2_0_apply (c : Dev nD) (t : Fin cfg2.N) (j : Fin 2048) :
    (iblk2 V c 0 t : Vec Ideal S1x2048 .i32) (ix2 0 j) = (V c main_v4 : I2 1 1601536) (ix2 0 (edgeN (t.val % 782) j)) :=
  congrArg (V c main_v4) (Shape.idx_ext₂ rfl (by
    show win2_0.index t 1 * 2048 + 1 * j.val = 2048 * (t.val % 782 % 782) + j.val
    rw [(idx2 t).2.1]
    omega))

/-- The message rows read at point t are those of edge tile t % 782. -/
theorem blk2_1_apply (c : Dev nD) (t : Fin cfg2.N) (j : Fin 2048) (q : Fin 64) :
    (iblk2 V c 1 t : Vec Ideal S2048x64 .f32) (ix2 j q) = (V c main_v7 : R2 1601536 64) (ix2 (edgeN (t.val % 782) j) q) :=
  congrArg (V c main_v7) (Shape.idx_ext₂ (by
    show win2_1.index t 0 * 2048 + 1 * j.val = 2048 * (t.val % 782 % 782) + j.val
    rw [(idx2 t).2.2.1]
    omega) (by show 0 * 64 + 1 * q.val = q.val; omega))

/-- The bias row is read whole at every point. -/
theorem blk2_2_apply (c : Dev nD) (t : Fin cfg2.N) (q : Fin 64) :
    (iblk2 V c 2 t : Vec Ideal S1x64 .f32) (ix2 0 q) = (V c main_v8 : R2 1 64) (ix2 0 q) :=
  congrArg (V c main_v8) (Shape.idx_ext₂ rfl (by show 0 * 64 + 1 * q.val = q.val; omega))

/-- One step at point t adds tile t % 782's sum for the nodes of row block t / 782. -/
theorem step2_apply (c : Dev nD) (t : Fin cfg2.N) (a : Vec Ideal S2000x64 .f32) (i : S2000x64.Idx) :
    k2_pay2 (grid2.coords t) (iblk2 V c 0 t) (iblk2 V c 1 t) a i
      = a i + tileSum (V c main_v4) (V c main_v7) (2000 * (t.val / 782) + (i 0).val) (t.val % 782) (i 1) := by
  obtain ⟨p, q, rfl⟩ : ∃ p q, i = ix2 p q := ⟨i 0, i 1, eq_ix2 i⟩
  unfold k2_pay2 tileSum
  simp only [shapeCast_self]
  refine (step_apply _ _ _ _ _ _ _ _ p q).trans ?_
  rw [(idx2 t).1]
  refine congrArg (a (ix2 p q) + ·) (Finset.sum_congr rfl fun j _ => ?_)
  rw [blk2_0_apply, blk2_1_apply]

/-- Every row of the result lies in the block written at the last point of its row block. -/
theorem cover2 (i : S100000x64.Idx) :
    ∃ t : Fin cfg2.N, (cfg2.win 3).flush t = true ∧ i ∈ ((cfg2.win 3).blk t).view.set := by
  obtain ⟨n, hn, hm, hl, hu⟩ := last_pt (i 0).val (idx2_lt0 i)
  have h1 := idx2_lt1 i
  have hlt : n < cfg2.N := hn.trans_eq N_2.symm
  refine ⟨⟨n, hlt⟩, (flush2_3 _).mpr hm, ?_⟩
  show i ∈ ((View.whole main_v9).slice (win2_3.rect ⟨n, hlt⟩)).set
  rw [View.set_slice_whole, Rect.mem_set_unit]
  exact Fin.forall_fin_two.mpr ⟨by
    show win2_3.index ⟨n, hlt⟩ 0 * 2000 ≤ (i 0).val ∧ (i 0).val < win2_3.index ⟨n, hlt⟩ 0 * 2000 + 2000
    rw [(idx2 _).2.2.2]
    exact ⟨hl, hu⟩, by show 0 * 64 ≤ (i 1).val ∧ (i 1).val < 0 * 64 + 64; omega⟩

/-- A block of 2000 rows that agrees with G on the rows of row block t / 782 is G's block at point t. -/
theorem cut2_eq_read (G : R2 100000 64) (X : Vec Ideal S2000x64 .f32) (t : Fin cfg2.N)
    (hr : ∀ j : S2000x64.Idx, 2000 * (t.val / 782) + (j 0).val < 100000)
    (hX : ∀ j : S2000x64.Idx, X j = G (ix2 ⟨2000 * (t.val / 782) + (j 0).val, hr j⟩ (j 1))) :
    (cfg2.win 3).cut (grid2.coords t) X = ((cfg2.win 3).blk t).view.read (Elt Ideal) G :=
  funext fun y => (hX _).trans (congrArg G (Shape.idx_ext₂ (by
    show 2000 * (t.val / 782) + (y 0).val = win2_3.index t 0 * 2000 + 1 * (y 0).val
    rw [(idx2 t).2.2.2]
    omega) (by show (y 1).val = 0 * 64 + 1 * (y 1).val; omega)))

end Blocks64

end Scatter

/-- The first summation ends holding max(summation + bias, 0). -/
theorem scatter2_val_of (V : (c : Dev nD) → (b : Ref sig .tc) → Buf (Elt Ideal) ((c : Thread nD τ).loc b))
    (c : Dev nD) (dat : Dat τ (Elt Ideal) Unit ℕ (UR sig nD τ) ℕ cfg2 c)
    (hA : ∀ w, dat.A w = V c (Pipeline.arrRef spec2 w))
    (acc : (n : ℕ) → n < cfg2.N → Vec Ideal S2000x64 .f32)
    (hfirst : ∀ t : Fin cfg2.N, t.val % 782 = 0 → acc t.val t.isLt = k2_pay2 (grid2.coords t) (iblk2 V c 0 t) (iblk2 V c 1 t) (k2_pay1 (F := Ideal)))
    (hnext : ∀ t : Fin cfg2.N, (h : t.val % 782 ≠ 0) → acc t.val t.isLt = k2_pay2 (grid2.coords t) (iblk2 V c 0 t) (iblk2 V c 1 t) (acc (t.val - 1) (by omega)))
    (hout : ∀ t : Fin cfg2.N, t.val % 782 = 781 → dat.after 3 t = k2_pay3 (acc t.val t.isLt) (iblk2 V c 2 t)) :
    dat.arrAt 3 cfg2.N = (reluBias (scatterK (V c main_v4) (V c main_v7)) (V c main_v8) : R2 100000 64) :=
  dat.arrAt_eq_of_cover 3 _ (fun t hf => by
    have ht := (flush2_3 t).mp hf
    have hN := t.isLt.trans_eq N_2
    show (cfg2.win 3).cut (grid2.coords t) (dat.after 3 t) = _
    rw [hout t ht]
    refine Scatter.cut2_eq_read _ _ t (fun j => by have := idx2_lt0 j; omega) fun j => ?_
    obtain ⟨p, q, rfl⟩ : ∃ (p : Fin 2000) (q : Fin 64), j = ix2 p q := ⟨j 0, j 1, eq_ix2 j⟩
    rw [Scatter.pay3_64_apply, Scatter.blk2_2_apply, Scatter.acc_last (V c main_v4) (V c main_v7) (k2_pay1 (F := Ideal))
      (fun i => Scatter.zero_apply _ i) (fun t a => k2_pay2 (grid2.coords t) (iblk2 V c 0 t) (iblk2 V c 1 t) a)
      (Scatter.step2_apply V c) acc hfirst hnext t ht p q (by have := p.isLt; omega)]
    rfl) Scatter.cover2

end Cert.KernelIdeal.Vals

end
-- ==== Proof.ScatterVal5.lean ====
import proofs.«414299_j48155173322928_2_alg».proof.Proof.ScatterVal

set_option synthInstance.maxSize 4096

noncomputable section

namespace Cert.KernelIdeal.Vals

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Tiles
open Cert.Spec
open scoped BigOperators

namespace Scatter

/-- A vector viewed as a column reads, at (i, 0), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

/-- Row maximum, shifted row, sum of its exponentials and the logarithm of that sum, taken along the rows of a [2000, 40] block z, give the logarithm of the softmax of each row of z. -/
theorem lsm_block (z : FVec Ideal S2000x40 .f32) (h : S2000x40.Reduces [1] S2000) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : S2000.ShapeCasts S2000x1) (hb : S2000x1.Broadcasts S2000x40) (p : Fin 2000) (q : Fin 40) :
    subf (subf z (broadcastTo S2000x40 (shapeCast S2000x1 (multiReduction .maximumf [1] S2000 z 0xFF800000#32 h hφ hmax) hc) hb))
        (broadcastTo S2000x40 (log (shapeCast S2000x1 (multiReduction .add [1] S2000
          (exp (subf z (broadcastTo S2000x40 (shapeCast S2000x1 (multiReduction .maximumf [1] S2000 z 0xFF800000#32 h hφ hmax) hc) hb)))
          0x00000000#32 h hφ hadd) hc)) hb) (ix2 p q)
      = lsmRow (fun j : Fin 40 => z (ix2 p j)) q := by
  have hlift : ∀ k : Fin 40, h.lift (ix1 p) k = ix2 p k := fun k => Shape.idx_ext₂ rfl rfl
  have hrow : ∀ k : Fin 40, subf z (broadcastTo S2000x40 (shapeCast S2000x1 (multiReduction .maximumf [1] S2000 z 0xFF800000#32 h hφ hmax) hc) hb) (ix2 p k)
      = z (ix2 p k) - rowMax (fun j : Fin 40 => z (ix2 p j)) := fun k => by
    rw [subf_apply, broadcastTo_a1_ab_apply, shapeCast_a_a1_apply, Ideal.multiReduction_maximumf_single]
    exact congrArg (z (ix2 p k) - (Finset.univ : Finset (Fin 40)).fold max (Ideal.ofBits .f32 0xFF800000#32) ·)
      (funext fun k => congrArg z (hlift k))
  rw [subf_apply, hrow q, broadcastTo_a1_ab_apply]
  show _ - Ideal.log (shapeCast S2000x1 _ hc (ix2 p 0)) = _
  rw [shapeCast_a_a1_apply, Ideal.multiReduction_add_single]
  exact congrArg (_ - Ideal.log ·) (Finset.sum_congr rfl fun k _ => by
    rw [hlift k]
    exact congrArg Ideal.exp (hrow k))

/-- The second stage closes with the logarithm of the softmax of each row of a + b. -/
theorem pay3_40_apply (a : Vec Ideal S2000x40 .f32) (b : Vec Ideal S1x40 .f32) (p : Fin 2000) (q : Fin 40) :
    k5_pay3 a b (ix2 p q) = lsmRow (fun j : Fin 40 => a (ix2 p j) + b (ix2 0 j)) q := by
  unfold k5_pay3
  simp only [shapeCast_self]
  refine (lsm_block _ _ _ _ _ _ _ p q).trans (congrArg (fun f : Fin 40 → EReal => lsmRow f q) (funext fun j => ?_))
  rw [addf_apply, broadcastTo_1b_ab_apply]

section Blocks40

variable (V : (c : Dev nD) → (b : Ref sig .tc) → Buf (Elt Ideal) ((c : Thread nD τ).loc b))

/-- The message rows read at point t are those of edge tile t % 782. -/
theorem blk5_1_apply (c : Dev nD) (t : Fin cfg5.N) (j : Fin 2048) (q : Fin 40) :
    (iblk5 V c 1 t : Vec Ideal S2048x40 .f32) (ix2 j q) = (V c main_v11 : R2 1601536 40) (ix2 (edgeN (t.val % 782) j) q) :=
  congrArg (V c main_v11) (Shape.idx_ext₂ (by
    show win2_1.index t 0 * 2048 + 1 * j.val = 2048 * (t.val % 782 % 782) + j.val
    rw [(idx2 t).2.2.1]
    omega) (by show 0 * 40 + 1 * q.val = q.val; omega))

/-- The bias row is read whole at every point. -/
theorem blk5_2_apply (c : Dev nD) (t : Fin cfg5.N) (q : Fin 40) :
    (iblk5 V c 2 t : Vec Ideal S1x40 .f32) (ix2 0 q) = (V c main_v12 : R2 1 40) (ix2 0 q) :=
  congrArg (V c main_v12) (Shape.idx_ext₂ rfl (by show 0 * 40 + 1 * q.val = q.val; omega))

/-- One step at point t adds tile t % 782's sum for the nodes of row block t / 782. -/
theorem step5_apply (c : Dev nD) (t : Fin cfg5.N) (a : Vec Ideal S2000x40 .f32) (i : S2000x40.Idx) :
    k5_pay2 (grid5.coords t) (iblk5 V c 0 t) (iblk5 V c 1 t) a i
      = a i + tileSum (V c main_v4) (V c main_v11) (2000 * (t.val / 782) + (i 0).val) (t.val % 782) (i 1) := by
  obtain ⟨p, q, rfl⟩ : ∃ p q, i = ix2 p q := ⟨i 0, i 1, eq_ix2 i⟩
  unfold k5_pay2 tileSum
  simp only [shapeCast_self]
  refine (step_apply _ _ _ _ _ _ _ _ p q).trans ?_
  rw [(idx2 t).1]
  refine congrArg (a (ix2 p q) + ·) (Finset.sum_congr rfl fun j _ => ?_)
  rw [show (iblk5 V c 0 t : Vec Ideal S1x2048 .i32) (ix2 0 j) = _ from blk2_0_apply V c t j, blk5_1_apply]

/-- Every row of the result lies in the block written at the last point of its row block. -/
theorem cover5 (i : S100000x40.Idx) :
    ∃ t : Fin cfg5.N, (cfg5.win 3).flush t = true ∧ i ∈ ((cfg5.win 3).blk t).view.set := by
  obtain ⟨n, hn, hm, hl, hu⟩ := last_pt (i 0).val (idx2_lt0 i)
  have h1 := idx2_lt1 i
  have hlt : n < cfg5.N := hn.trans_eq N_5.symm
  refine ⟨⟨n, hlt⟩, (flush5_3 _).mpr hm, ?_⟩
  show i ∈ ((View.whole main_v13).slice (win5_3.rect ⟨n, hlt⟩)).set
  rw [View.set_slice_whole, Rect.mem_set_unit]
  exact Fin.forall_fin_two.mpr ⟨by
    show win2_3.index ⟨n, hlt⟩ 0 * 2000 ≤ (i 0).val ∧ (i 0).val < win2_3.index ⟨n, hlt⟩ 0 * 2000 + 2000
    rw [(idx2 _).2.2.2]
    exact ⟨hl, hu⟩, by show 0 * 40 ≤ (i 1).val ∧ (i 1).val < 0 * 40 + 40; omega⟩

/-- A block of 2000 rows that agrees with G on the rows of row block t / 782 is G's block at point t. -/
theorem cut5_eq_read (G : R2 100000 40) (X : Vec Ideal S2000x40 .f32) (t : Fin cfg5.N)
    (hr : ∀ j : S2000x40.Idx, 2000 * (t.val / 782) + (j 0).val < 100000)
    (hX : ∀ j : S2000x40.Idx, X j = G (ix2 ⟨2000 * (t.val / 782) + (j 0).val, hr j⟩ (j 1))) :
    (cfg5.win 3).cut (grid5.coords t) X = ((cfg5.win 3).blk t).view.read (Elt Ideal) G :=
  funext fun y => (hX _).trans (congrArg G (Shape.idx_ext₂ (by
    show 2000 * (t.val / 782) + (y 0).val = win2_3.index t 0 * 2000 + 1 * (y 0).val
    rw [(idx2 t).2.2.2]
    omega) (by show (y 1).val = 0 * 40 + 1 * (y 1).val; omega)))

end Blocks40

end Scatter

/-- The second summation ends holding the row-wise logarithm of the softmax of summation + bias. -/
theorem scatter5_val_of (V : (c : Dev nD) → (b : Ref sig .tc) → Buf (Elt Ideal) ((c : Thread nD τ).loc b))
    (c : Dev nD) (dat : Dat τ (Elt Ideal) Unit ℕ (UR sig nD τ) ℕ cfg5 c)
    (hA : ∀ w, dat.A w = V c (Pipeline.arrRef spec5 w))
    (acc : (n : ℕ) → n < cfg5.N → Vec Ideal S2000x40 .f32)
    (hfirst : ∀ t : Fin cfg5.N, t.val % 782 = 0 → acc t.val t.isLt = k5_pay2 (grid5.coords t) (iblk5 V c 0 t) (iblk5 V c 1 t) (k5_pay1 (F := Ideal)))
    (hnext : ∀ t : Fin cfg5.N, (h : t.val % 782 ≠ 0) → acc t.val t.isLt = k5_pay2 (grid5.coords t) (iblk5 V c 0 t) (iblk5 V c 1 t) (acc (t.val - 1) (by omega)))
    (hout : ∀ t : Fin cfg5.N, t.val % 782 = 781 → dat.after 3 t = k5_pay3 (acc t.val t.isLt) (iblk5 V c 2 t)) :
    dat.arrAt 3 cfg5.N = (lsmBias (scatterK (V c main_v4) (V c main_v11)) (V c main_v12) : R2 100000 40) :=
  dat.arrAt_eq_of_cover 3 _ (fun t hf => by
    have ht := (flush5_3 t).mp hf
    have hN := t.isLt.trans_eq N_5
    show (cfg5.win 3).cut (grid5.coords t) (dat.after 3 t) = _
    rw [hout t ht]
    refine Scatter.cut5_eq_read _ _ t (fun j => by have := idx2_lt0 j; omega) fun j => ?_
    obtain ⟨p, q, rfl⟩ : ∃ (p : Fin 2000) (q : Fin 40), j = ix2 p q := ⟨j 0, j 1, eq_ix2 j⟩
    rw [Scatter.pay3_40_apply]
    refine congrArg (fun f : Fin 40 → EReal => lsmRow f q) (funext fun k => ?_)
    rw [Scatter.blk5_2_apply, Scatter.acc_last (V c main_v4) (V c main_v11) (k5_pay1 (F := Ideal))
      (fun i => Scatter.zero_apply _ i) (fun t a => k5_pay2 (grid5.coords t) (iblk5 V c 0 t) (iblk5 V c 1 t) a)
      (Scatter.step5_apply V c) acc hfirst hnext t ht p k (by have := p.isLt; omega)]) Scatter.cover5

end Cert.KernelIdeal.Vals

end
-- ==== Proof.HostVals.lean ====
import proofs.«414299_j48155173322928_2_alg».proof.Proof.Gen.KernelIdeal.Regions
import proofs.«414299_j48155173322928_2_alg».proof.Proof.Spec
import Idealize.ShloMosaic.Lib.StableHlo.Run
import Idealize.ShloMosaic.Lib.KernelVsHost
import Idealize.ShloMosaic.Lib.Pipeline.Value
import Idealize.ShloMosaic.Lib.ValueIdx

noncomputable section

namespace Cert.KernelIdeal.Vals

open Idealize.ShloMosaic Idealize.ShloMosaic.TcCoe Idealize.ShloMosaic.ValueIdx
open Idealize.SL Idealize.SL.Sem
open Cert.KernelIdeal Cert.Spec

namespace HostRows

theorem row_apply {α : Type} {d : Nat} (x : (⟨1, ![d]⟩ : Shape).Idx → α)
    (hc : (⟨1, ![d]⟩ : Shape).ShapeCasts ⟨2, ![1, d]⟩) (i : (⟨2, ![1, d]⟩ : Shape).Idx) :
    shapeCast ⟨2, ![1, d]⟩ x hc i = x (ix1 (i 1)) := by
  have h0 : (i 0).val = 0 := Nat.lt_one_iff.mp (i 0).isLt
  refine shapeCast_apply _ hc i (ix1 (i 1)) ?_
  rw [Shape.rowMajor_val_one, Shape.rowMajor_val_two]
  show (i 1).val = (i 0).val * d + (i 1).val
  rw [h0]; omega

theorem padRow_apply {α : Type} (x : (⟨1, ![1600000]⟩ : Shape).Idx → α) (v : (⟨0, ![]⟩ : Shape).Idx → α)
    (hp : (⟨1, ![1600000]⟩ : Shape).Pads (![0] : Fin 1 → Nat) ![1536] ![0] ⟨1, ![1601536]⟩)
    (hu : 0 < (⟨0, ![]⟩ : Shape).numel)
    (hc : (⟨1, ![1601536]⟩ : Shape).ShapeCasts ⟨2, ![1, 1601536]⟩)
    (i : (⟨2, ![1, 1601536]⟩ : Shape).Idx) :
    shapeCast ⟨2, ![1, 1601536]⟩ (pad ⟨1, ![1601536]⟩ ![0] ![1536] ![0] x v hp hu) hc i
      = if h : (i 1).val < 1600000 then x (ix1 ⟨(i 1).val, h⟩) else v ix0 := by
  refine (row_apply _ hc i).trans ?_
  by_cases h : (i 1).val < 1600000
  · rw [dif_pos h]
    refine pad_apply_of_inside _ _ _ x v hp hu _ (ix1 ⟨(i 1).val, h⟩) (fun a => ?_)
    match a with
    | ⟨0, _⟩ => show (i 1).val = 0 + (i 1).val * (0 + 1); omega
  · rw [dif_neg h]
    refine (pad_apply_of_not_inside _ _ _ x v hp hu _ (0 : Fin 1) ?_).trans (congrArg v (eq_ix0 _))
    show ¬(0 ≤ (i 1).val ∧ ((i 1).val - 0) % (0 + 1) = 0 ∧ ((i 1).val - 0) / (0 + 1) < 1600000)
    omega

section Stretches
variable (W : Valuation τ sig (Elt Ideal))

theorem s0_c : (StableHlo.after Gen.hostOps0 W (Proc.devRef .tc main_c) : S_.Idx → BitVec 32) = constantI S_ 32 0#32 := by
  after_results

theorem s2_c0 : (StableHlo.after Gen.hostOps0_2 W (Proc.devRef .tc main_c_0) : S_.Idx → BitVec 32) = constantI S_ 32 100000#32 := by
  after_results

theorem s4_c1 : (StableHlo.after Gen.hostOps0_4 W (Proc.devRef .tc main_c_1) : S_.Idx → BitVec 32) = constantI S_ 32 0#32 := by
  after_results

theorem s1_v0 : (StableHlo.after Gen.hostOps0_1 W (Proc.devRef .tc main_v0) : I1 1601536)
    = pad S1601536 ![0] ![1536] ![0] (W (Proc.devRef .tc main_arg6) : I1 1600000) (W (Proc.devRef .tc main_c) : S_.Idx → BitVec 32)
        Gen.pads_S1600000_S1601536_015360 Gen.h_S_ := by
  after_results
  rfl

theorem s3_v1 : (StableHlo.after Gen.hostOps0_3 W (Proc.devRef .tc main_v1) : I1 1601536)
    = pad S1601536 ![0] ![1536] ![0] (W (Proc.devRef .tc main_arg7) : I1 1600000) (W (Proc.devRef .tc main_c_0) : S_.Idx → BitVec 32)
        Gen.pads_S1600000_S1601536_015360 Gen.h_S_ := by
  after_results
  rfl

theorem s5_v2 : (StableHlo.after Gen.hostOps0_5 W (Proc.devRef .tc main_v2) : R1 1601536)
    = pad S1601536 ![0] ![1536] ![0] (W (Proc.devRef .tc main_arg5) : R1 1600000)
        (sitofp (F := Ideal) .f32 (W (Proc.devRef .tc main_c_1) : S_.Idx → BitVec 32) : S_.Idx → EReal)
        Gen.pads_S1600000_S1601536_015360 Gen.h_S_ := by
  after_results
  rfl

theorem s6_v3 : (StableHlo.after Gen.hostOps0_6 W (Proc.devRef .tc main_v3) : I2 1 1601536)
    = shapeCast S1x1601536 (W (Proc.devRef .tc main_v0) : I1 1601536) Gen.shapeCasts_S1601536_S1x1601536 := by
  after_results
  rfl

theorem s6_v4 : (StableHlo.after Gen.hostOps0_6 W (Proc.devRef .tc main_v4) : I2 1 1601536)
    = shapeCast S1x1601536 (W (Proc.devRef .tc main_v1) : I1 1601536) Gen.shapeCasts_S1601536_S1x1601536 := by
  after_results
  rfl

theorem s6_v5 : (StableHlo.after Gen.hostOps0_6 W (Proc.devRef .tc main_v5) : R2 1 1601536)
    = shapeCast S1x1601536 (W (Proc.devRef .tc main_v2) : R1 1601536) Gen.shapeCasts_S1601536_S1x1601536 := by
  after_results
  rfl

theorem s9_v8 : (StableHlo.after Gen.hostOps2 W (Proc.devRef .tc main_v8) : R2 1 64)
    = shapeCast S1x64 (W (Proc.devRef .tc main_arg2) : R1 64) Gen.shapeCasts_S64_S1x64 := by
  after_results
  rfl

theorem s13_v12 : (StableHlo.after Gen.hostOps5 W (Proc.devRef .tc main_v12) : R2 1 40)
    = shapeCast S1x40 (W (Proc.devRef .tc main_arg4) : R1 40) Gen.shapeCasts_S40_S1x40 := by
  after_results
  rfl
end Stretches

variable (m : (ℓ : Loc nD τ sig) → Buf (Elt Ideal) ℓ)

theorem V6_v0 (c : Dev nD) : (Gen.V6 m c main_v0 : I1 1601536)
    = pad S1601536 ![0] ![1536] ![0] (m ((c : Thread nD τ).loc main_arg6) : I1 1600000) (constantI S_ 32 0#32)
        Gen.pads_S1600000_S1601536_015360 Gen.h_S_ := by
  refine (Gen.V6_of m c main_v0 (by decide)).trans ?_
  refine (Gen.V5_of m c main_v0 (by decide)).trans ?_
  refine (Gen.V4_of m c main_v0 (by decide)).trans ?_
  refine (Gen.V3_of m c main_v0 (by decide)).trans ?_
  refine (s1_v0 (Gen.V1 m c)).trans ?_
  have ea : (Gen.V1 m c main_arg6 : I1 1600000) = m ((c : Thread nD τ).loc main_arg6) := Gen.V1_of m c main_arg6 (by decide)
  have ec : (Gen.V1 m c main_c : S_.Idx → BitVec 32) = constantI S_ 32 0#32 := s0_c (Gen.V0 m c)
  exact congrArg₂ (fun (x : I1 1600000) (v : S_.Idx → BitVec 32) =>
    pad S1601536 ![0] ![1536] ![0] x v Gen.pads_S1600000_S1601536_015360 Gen.h_S_) ea ec

theorem V6_v1 (c : Dev nD) : (Gen.V6 m c main_v1 : I1 1601536)
    = pad S1601536 ![0] ![1536] ![0] (m ((c : Thread nD τ).loc main_arg7) : I1 1600000) (constantI S_ 32 100000#32)
        Gen.pads_S1600000_S1601536_015360 Gen.h_S_ := by
  refine (Gen.V6_of m c main_v1 (by decide)).trans ?_
  refine (Gen.V5_of m c main_v1 (by decide)).trans ?_
  refine (s3_v1 (Gen.V3 m c)).trans ?_
  have ea : (Gen.V3 m c main_arg7 : I1 1600000) = m ((c : Thread nD τ).loc main_arg7) :=
    (Gen.V3_of m c main_arg7 (by decide)).trans <| (Gen.V2_of m c main_arg7 (by decide)).trans <| Gen.V1_of m c main_arg7 (by decide)
  have ec : (Gen.V3 m c main_c_0 : S_.Idx → BitVec 32) = constantI S_ 32 100000#32 := s2_c0 (Gen.V2 m c)
  exact congrArg₂ (fun (x : I1 1600000) (v : S_.Idx → BitVec 32) =>
    pad S1601536 ![0] ![1536] ![0] x v Gen.pads_S1600000_S1601536_015360 Gen.h_S_) ea ec

theorem V6_v2 (c : Dev nD) : (Gen.V6 m c main_v2 : R1 1601536)
    = pad S1601536 ![0] ![1536] ![0] (m ((c : Thread nD τ).loc main_arg5) : R1 1600000)
        (sitofp (F := Ideal) .f32 (constantI S_ 32 0#32) : S_.Idx → EReal)
        Gen.pads_S1600000_S1601536_015360 Gen.h_S_ := by
  refine (s5_v2 (Gen.V5 m c)).trans ?_
  have ea : (Gen.V5 m c main_arg5 : R1 1600000) = m ((c : Thread nD τ).loc main_arg5) :=
    (Gen.V5_of m c main_arg5 (by decide)).trans <| (Gen.V4_of m c main_arg5 (by decide)).trans <|
    (Gen.V3_of m c main_arg5 (by decide)).trans <| (Gen.V2_of m c main_arg5 (by decide)).trans <| Gen.V1_of m c main_arg5 (by decide)
  have ec : (Gen.V5 m c main_c_1 : S_.Idx → BitVec 32) = constantI S_ 32 0#32 := s4_c1 (Gen.V4 m c)
  exact congrArg₂ (fun (x : R1 1600000) (v : S_.Idx → BitVec 32) =>
    pad S1601536 ![0] ![1536] ![0] x (sitofp (F := Ideal) .f32 v : S_.Idx → EReal) Gen.pads_S1600000_S1601536_015360 Gen.h_S_) ea ec

end HostRows

open HostRows

variable (m : (ℓ : Loc nD τ sig) → Buf (Elt Ideal) ℓ)

theorem V7_src (c : Dev nD) : (Gen.V7 m c main_v3 : I2 1 1601536) = srcRow (m ((c : Thread nD τ).loc main_arg6)) := by
  refine (s6_v3 (Gen.V6 m c)).trans ?_
  refine (congrArg (fun x : I1 1601536 => shapeCast S1x1601536 x Gen.shapeCasts_S1601536_S1x1601536) (V6_v0 m c)).trans ?_
  funext i
  exact (padRow_apply _ _ _ _ _ i).trans rfl

theorem V7_dst (c : Dev nD) : (Gen.V7 m c main_v4 : I2 1 1601536) = dstRow (m ((c : Thread nD τ).loc main_arg7)) := by
  refine (s6_v4 (Gen.V6 m c)).trans ?_
  refine (congrArg (fun x : I1 1601536 => shapeCast S1x1601536 x Gen.shapeCasts_S1601536_S1x1601536) (V6_v1 m c)).trans ?_
  funext i
  exact (padRow_apply _ _ _ _ _ i).trans rfl

theorem V7_adj (c : Dev nD) : (Gen.V7 m c main_v5 : R2 1 1601536) = adjRow (m ((c : Thread nD τ).loc main_arg5)) := by
  refine (s6_v5 (Gen.V6 m c)).trans ?_
  refine (congrArg (fun x : R1 1601536 => shapeCast S1x1601536 x Gen.shapeCasts_S1601536_S1x1601536) (V6_v2 m c)).trans ?_
  funext i
  refine (padRow_apply _ _ _ _ _ i).trans ?_
  simp only [adjRow]
  by_cases h : (i 1).val < 1600000
  · rw [dif_pos h, dif_pos h]
  · rw [dif_neg h, dif_neg h]
    exact sitofp_zero (φ := .f32)

theorem V10_b1 (outs : Gen.Outs (F := Ideal)) (c : Dev nD) :
    (Gen.V10 m outs c main_v8 : R2 1 64) = biasRow (m ((c : Thread nD τ).loc main_arg2)) := by
  refine (s9_v8 (Gen.V9 m outs c)).trans ?_
  have ea : (Gen.V9 m outs c main_arg2 : R1 64) = m ((c : Thread nD τ).loc main_arg2) :=
    (Gen.V9_of m outs c main_arg2 (by decide)).trans <| (Gen.V8_of m outs c main_arg2 (by decide)).trans <|
    (Gen.V7_of m c main_arg2 (by decide)).trans <| (Gen.V6_of m c main_arg2 (by decide)).trans <|
    (Gen.V5_of m c main_arg2 (by decide)).trans <| (Gen.V4_of m c main_arg2 (by decide)).trans <|
    (Gen.V3_of m c main_arg2 (by decide)).trans <| (Gen.V2_of m c main_arg2 (by decide)).trans <| Gen.V1_of m c main_arg2 (by decide)
  refine (congrArg (fun x : R1 64 => shapeCast S1x64 x Gen.shapeCasts_S64_S1x64) ea).trans ?_
  funext i
  exact (row_apply _ _ i).trans rfl

theorem V14_b2 (outs : Gen.Outs (F := Ideal)) (c : Dev nD) :
    (Gen.V14 m outs c main_v12 : R2 1 40) = biasRow (m ((c : Thread nD τ).loc main_arg4)) := by
  refine (s13_v12 (Gen.V13 m outs c)).trans ?_
  have ea : (Gen.V13 m outs c main_arg4 : R1 40) = m ((c : Thread nD τ).loc main_arg4) :=
    (Gen.V13_of m outs c main_arg4 (by decide)).trans <| (Gen.V12_of m outs c main_arg4 (by decide)).trans <|
    (Gen.V11_of m outs c main_arg4 (by decide)).trans <| (Gen.V10_of m outs c main_arg4 (by decide)).trans <|
    (Gen.V9_of m outs c main_arg4 (by decide)).trans <| (Gen.V8_of m outs c main_arg4 (by decide)).trans <|
    (Gen.V7_of m c main_arg4 (by decide)).trans <| (Gen.V6_of m c main_arg4 (by decide)).trans <|
    (Gen.V5_of m c main_arg4 (by decide)).trans <| (Gen.V4_of m c main_arg4 (by decide)).trans <|
    (Gen.V3_of m c main_arg4 (by decide)).trans <| (Gen.V2_of m c main_arg4 (by decide)).trans <| Gen.V1_of m c main_arg4 (by decide)
  refine (congrArg (fun x : R1 40 => shapeCast S1x40 x Gen.shapeCasts_S40_S1x40) ea).trans ?_
  funext i
  exact (row_apply _ _ i).trans rfl

end Cert.KernelIdeal.Vals

end
-- ==== Proof.ValueRun.lean ====
import proofs.«414299_j48155173322928_2_alg».proof.Proof.MainRun
import proofs.«414299_j48155173322928_2_alg».proof.Proof.DenseVal
import proofs.«414299_j48155173322928_2_alg».proof.Proof.GatherVal
import proofs.«414299_j48155173322928_2_alg».proof.Proof.GatherVal4
import proofs.«414299_j48155173322928_2_alg».proof.Proof.ScatterVal
import proofs.«414299_j48155173322928_2_alg».proof.Proof.ScatterVal5
import proofs.«414299_j48155173322928_2_alg».proof.Proof.HostVals

noncomputable section

namespace Cert.KernelIdeal.Vals

open Idealize.ShloMosaic Idealize.ShloMosaic.TcCoe Idealize.ShloMosaic.ValueIdx
open Idealize.SL Idealize.SL.Sem
open Idealize.ShloMosaic.Pipeline (Dat)
open Cert.Spec Cert.KernelIdeal Cert.KernelIdeal.Gen Cert.KernelIdeal.Tiles

variable (m : (ℓ : Loc nD τ sig) → Buf (Elt Ideal) ℓ)

theorem U10_of (c : Dev nD) (r : Ref sig .tc) (h : r ∉ Gen.hostOps2_W) : U10 m c r = U9 m c r :=
  Gen.V10_of m (outs m) c r h
theorem U14_of (c : Dev nD) (r : Ref sig .tc) (h : r ∉ Gen.hostOps5_W) : U14 m c r = U13 m c r :=
  Gen.V14_of m (outs m) c r h

-- an array no operation before the first computation writes holds what the launch memory holds
theorem U7_arg (c : Dev nD) (r : Ref sig .tc) : (r ∉ Gen.hostOps0_W ∧ r ∉ Gen.hostOps0_1_W ∧ r ∉ Gen.hostOps0_2_W ∧ r ∉ Gen.hostOps0_3_W
    ∧ r ∉ Gen.hostOps0_4_W ∧ r ∉ Gen.hostOps0_5_W ∧ r ∉ Gen.hostOps0_6_W) → U7 m c r = m ((c : Thread nD τ).loc r)
  | ⟨h1, h2, h3, h4, h5, h6, h7⟩ => (Gen.V7_of m c r h7).trans <| (Gen.V6_of m c r h6).trans <| (Gen.V5_of m c r h5).trans <|
    (Gen.V4_of m c r h4).trans <| (Gen.V3_of m c r h3).trans <| (Gen.V2_of m c r h2).trans (Gen.V1_of m c r h1)

-- an array none of the six computations and neither bias layout writes holds after each of them what it held before the first
theorem keep (c : Dev nD) (r : Ref sig .tc) : (r ≠ main_v6 ∧ r ≠ main_v7 ∧ r ∉ Gen.hostOps2_W ∧ r ≠ main_v9 ∧ r ≠ main_v10 ∧ r ≠ main_v11
    ∧ r ∉ Gen.hostOps5_W) → U8 m c r = U7 m c r ∧ U10 m c r = U7 m c r ∧ U11 m c r = U7 m c r ∧ U12 m c r = U7 m c r ∧ U14 m c r = U7 m c r
  | ⟨h6, h7, h8, h9, h10, h11, h12⟩ =>
    have e8 := U8_of m c r h6
    have e10 := (U10_of m c r h8).trans ((U9_of m c r h7).trans e8)
    have e12 := (U12_of m c r h10).trans ((U11_of m c r h9).trans e10)
    ⟨e8, e10, (U11_of m c r h9).trans e10, e12, (U14_of m c r h12).trans ((U13_of m c r h11).trans e12)⟩

theorem U7_src (c : Dev nD) : (U7 m c main_v3 : I2 1 1601536) = srcRow (m ((c : Thread nD τ).loc main_arg6)) := V7_src m c
theorem U7_dst (c : Dev nD) : (U7 m c main_v4 : I2 1 1601536) = dstRow (m ((c : Thread nD τ).loc main_arg7)) := V7_dst m c
theorem U7_adj (c : Dev nD) : (U7 m c main_v5 : R2 1 1601536) = adjRow (m ((c : Thread nD τ).loc main_arg5)) := V7_adj m c

-- the stages of the blocked forward pass, as functions of the launch memory
abbrev x1 (c : Dev nD) : R2 100000 64 := dense (m ((c : Thread nD τ).loc main_arg0)) (m ((c : Thread nD τ).loc main_arg1))
abbrev g1 (c : Dev nD) : R2 1601536 64 := gatherK (n := 100000) (srcRow (m ((c : Thread nD τ).loc main_arg6))) (adjRow (m ((c : Thread nD τ).loc main_arg5))) (x1 m c)
abbrev h1 (c : Dev nD) : R2 100000 64 := reluBias (scatterK (n := 100000) (dstRow (m ((c : Thread nD τ).loc main_arg7))) (g1 m c)) (biasRow (m ((c : Thread nD τ).loc main_arg2)))
abbrev x2 (c : Dev nD) : R2 100000 40 := dense (h1 m c) (m ((c : Thread nD τ).loc main_arg3))
abbrev g2 (c : Dev nD) : R2 1601536 40 := gatherK (n := 100000) (srcRow (m ((c : Thread nD τ).loc main_arg6))) (adjRow (m ((c : Thread nD τ).loc main_arg5))) (x2 m c)

theorem val_v6 (c : Dev nD) : (U8 m c main_v6 : R2 100000 64) = x1 m c := by
  refine (U8_out m c).trans ?_
  refine (dense0_val_of (tcv (U7 m)) c (dat0 (tcv (U7 m)) c) (A_eq0 _ c) (after0_out _ c)).trans ?_
  show (dense (U7 m c main_arg0 : R2 100000 512) (U7 m c main_arg1 : R2 512 64) : R2 100000 64) = _
  rw [U7_arg m c main_arg0 (by decide), U7_arg m c main_arg1 (by decide)]

theorem val_v7 (c : Dev nD) : (U9 m c main_v7 : R2 1601536 64) = g1 m c := by
  refine (U9_out m c).trans ?_
  refine (gather1_val_of (tcv (U8 m)) c (dat1 (tcv (U8 m)) c) (A_eq1 _ c) (acc1 (tcv (U8 m)) c)
    (acc1_first _ c) (acc1_next _ c) (after1_out _ c)).trans ?_
  show (gatherK (U8 m c main_v3 : I2 1 1601536) (U8 m c main_v5 : R2 1 1601536) (U8 m c main_v6 : R2 100000 64) : R2 1601536 64) = _
  rw [val_v6, (keep m c main_v3 (by decide)).1, (keep m c main_v5 (by decide)).1, U7_src, U7_adj]

theorem val_v9 (c : Dev nD) : (U11 m c main_v9 : R2 100000 64) = h1 m c := by
  refine (U11_out m c).trans ?_
  refine (scatter2_val_of (tcv (U10 m)) c (dat2 (tcv (U10 m)) c) (A_eq2 _ c) (acc2 (tcv (U10 m)) c)
    (acc2_first _ c) (acc2_next _ c) (after2_out _ c)).trans ?_
  show (reluBias (scatterK (U10 m c main_v4 : I2 1 1601536) (U10 m c main_v7 : R2 1601536 64)) (U10 m c main_v8 : R2 1 64) : R2 100000 64) = _
  rw [show (U10 m c main_v8 : R2 1 64) = _ from V10_b1 m (outs m) c, U10_of m c main_v7 (by decide), val_v7,
    (keep m c main_v4 (by decide)).2.1, U7_dst]

theorem val_v10 (c : Dev nD) : (U12 m c main_v10 : R2 100000 40) = x2 m c := by
  refine (U12_out m c).trans ?_
  refine (dense3_val_of (tcv (U11 m)) c (dat3 (tcv (U11 m)) c) (A_eq3 _ c) (after3_out _ c)).trans ?_
  show (dense (U11 m c main_v9 : R2 100000 64) (U11 m c main_arg3 : R2 64 40) : R2 100000 40) = _
  rw [val_v9, (keep m c main_arg3 (by decide)).2.2.1, U7_arg m c main_arg3 (by decide)]

theorem val_v11 (c : Dev nD) : (U13 m c main_v11 : R2 1601536 40) = g2 m c := by
  refine (U13_out m c).trans ?_
  refine (gather4_val_of (tcv (U12 m)) c (dat4 (tcv (U12 m)) c) (A_eq4 _ c) (acc4 (tcv (U12 m)) c)
    (acc4_first _ c) (acc4_next _ c) (after4_out _ c)).trans ?_
  show (gatherK (U12 m c main_v3 : I2 1 1601536) (U12 m c main_v5 : R2 1 1601536) (U12 m c main_v10 : R2 100000 40) : R2 1601536 40) = _
  rw [val_v10, (keep m c main_v3 (by decide)).2.2.2.1, (keep m c main_v5 (by decide)).2.2.2.1, U7_src, U7_adj]

theorem val_v13 (c : Dev nD) : (U15 m c main_v13 : R2 100000 40)
    = forwardK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (U15_out m c).trans ?_
  refine (scatter5_val_of (tcv (U14 m)) c (dat5 (tcv (U14 m)) c) (A_eq5 _ c) (acc5 (tcv (U14 m)) c)
    (acc5_first _ c) (acc5_next _ c) (after5_out _ c)).trans ?_
  show (lsmBias (scatterK (U14 m c main_v4 : I2 1 1601536) (U14 m c main_v11 : R2 1601536 40)) (U14 m c main_v12 : R2 1 40) : R2 100000 40) = _
  rw [show (U14 m c main_v12 : R2 1 40) = _ from V14_b2 m (outs m) c, U14_of m c main_v11 (by decide), val_v11,
    (keep m c main_v4 (by decide)).2.2.2.2, U7_dst]
  rfl

end Cert.KernelIdeal.Vals

end
-- ==== Proof.Algebra.lean ====
import proofs.«414299_j48155173322928_2_alg».proof.Proof.Spec
import Mathlib.Data.EReal.Basic
import Mathlib.Algebra.BigOperators.Group.Finset.Basic
import Mathlib.Algebra.BigOperators.Fin

noncomputable section

namespace Cert.Spec

open Idealize.ShloMosaic Idealize.ShloMosaic.ValueIdx
open scoped BigOperators

theorem ofNat_node {s : BitVec 32} (hs : s.toNat < 100000) : BitVec.ofNat 32 (node s).val = s := by
  apply BitVec.eq_of_toNat_eq
  simp only [node, BitVec.toNat_ofNat]
  omega

theorem node_ofNat (v : Fin 100000) : node (BitVec.ofNat 32 v.val) = v := by
  apply Fin.ext
  have := v.isLt
  simp only [node, BitVec.toNat_ofNat]
  omega

theorem ofNat_ne_pad {n : Nat} (hn : n < 100000) : BitVec.ofNat 32 n ≠ 100000#32 := by
  intro h
  have := congrArg BitVec.toNat h
  simp only [BitVec.toNat_ofNat] at this
  omega

theorem sum_select (s : BitVec 32) (hs : s.toNat < 100000) (a : EReal) (f : Fin 100000 → EReal) :
    ∑ v : Fin 100000, (if s = BitVec.ofNat 32 v.val then a else 0) * f v = a * f (node s) := by
  rw [Finset.sum_eq_single (node s)]
  · rw [if_pos (ofNat_node hs).symm]
  · intro v _ hv
    rw [if_neg, zero_mul]
    intro h
    exact hv (by rw [h, node_ofNat])
  · intro h
    exact absurd (Finset.mem_univ _) h

abbrev padE (e : Fin 1600000) : Fin 1601536 := Fin.castLE (by decide) e

theorem srcRow_padE (src : I1 1600000) (e : Fin 1600000) : srcRow src (ix2 0 (padE e)) = src (ix1 e) := dif_pos e.isLt

theorem dstRow_padE (dst : I1 1600000) (e : Fin 1600000) : dstRow dst (ix2 0 (padE e)) = dst (ix1 e) := dif_pos e.isLt

theorem adjRow_padE (adj : R1 1600000) (e : Fin 1600000) : adjRow adj (ix2 0 (padE e)) = adj (ix1 e) := dif_pos e.isLt

theorem dstRow_pad (dst : I1 1600000) (e : Fin 1601536) (he : ¬ e.val < 1600000) :
    dstRow dst (ix2 0 e) = 100000#32 := dif_neg he

theorem gatherK_padE {d : Nat} (adj : R1 1600000) (src : I1 1600000) (y : R2 100000 d)
    (hsrc : ∀ e : Fin 1600000, (src (ix1 e)).toNat < 100000) (e : Fin 1600000) (j : Fin d) :
    gatherK (n := 100000) (srcRow src) (adjRow adj) y (ix2 (padE e) j)
      = adj (ix1 e) * y (ix2 (node (src (ix1 e))) j) := by
  show ∑ v : Fin 100000, (if srcRow src (ix2 0 (padE e)) = BitVec.ofNat 32 v.val
      then adjRow adj (ix2 0 (padE e)) else 0) * y (ix2 v j) = _
  rw [srcRow_padE, adjRow_padE]
  exact sum_select (src (ix1 e)) (hsrc e) (adj (ix1 e)) (fun v => y (ix2 v j))

theorem scatterK_padE {d : Nat} (dst : I1 1600000) (msg : R2 1601536 d) (i : (⟨2, ![100000, d]⟩ : Shape).Idx) :
    scatterK (n := 100000) (dstRow dst) msg i
      = ∑ e : Fin 1600000, (if dst (ix1 e) = BitVec.ofNat 32 (i 0).val then msg (ix2 (padE e) (i 1)) else 0) := by
  show ∑ e : Fin 1601536, (if BitVec.ofNat 32 (i 0).val = dstRow dst (ix2 0 e) then (1 : EReal) else 0)
      * msg (ix2 e (i 1)) = _
  symm
  apply Finset.sum_of_injOn padE
  · intro a _ b _ h
    exact Fin.ext (by simpa [padE] using congrArg Fin.val h)
  · intro a _
    exact Finset.mem_coe.mpr (Finset.mem_univ _)
  · intro e _ he
    have hlt : ¬ e.val < 1600000 := by
      intro h
      exact he ⟨⟨e.val, h⟩, Finset.mem_coe.mpr (Finset.mem_univ _), Fin.ext rfl⟩
    rw [dstRow_pad dst e hlt, if_neg (ofNat_ne_pad (idx2_lt0 i)), zero_mul]
  · intro e _
    rw [dstRow_padE]
    by_cases h : dst (ix1 e) = BitVec.ofNat 32 (i 0).val
    · rw [if_pos h, if_pos h.symm, one_mul]
    · rw [if_neg h, if_neg (fun h' => h h'.symm), zero_mul]

theorem spmm_blocked_eq {d : Nat} (adj : R1 1600000) (src dst : I1 1600000) (y : R2 100000 d)
    (hsrc : ∀ e : Fin 1600000, (src (ix1 e)).toNat < 100000) :
    scatterK (n := 100000) (dstRow dst) (gatherK (n := 100000) (srcRow src) (adjRow adj) y) = spmm adj src dst y := by
  funext i
  rw [scatterK_padE]
  show _ = ∑ e : Fin 1600000,
    (if dst (ix1 e) = BitVec.ofNat 32 (i 0).val then adj (ix1 e) * y (ix2 (node (src (ix1 e))) (i 1)) else 0)
  exact Finset.sum_congr rfl fun e _ => congrArg (fun z : EReal => if dst (ix1 e) = BitVec.ofNat 32 (i 0).val then z else 0)
    (gatherK_padE adj src y hsrc e (i 1))

theorem forwardK_eq (x : R2 100000 512) (W1 : R2 512 64) (b1 : R1 64) (W2 : R2 64 40) (b2 : R1 40)
    (adj : R1 1600000) (src dst : I1 1600000) (hsrc : ∀ e : Fin 1600000, (src (ix1 e)).toNat < 100000) :
    forwardK x W1 b1 W2 b2 adj src dst = forward x W1 b1 W2 b2 adj src dst := by
  unfold forwardK forward
  rw [spmm_blocked_eq adj src dst _ hsrc, spmm_blocked_eq adj src dst _ hsrc]

end Cert.Spec

end
-- ==== Proof.PreRange.lean ====
import proofs.«414299_j48155173322928_2_alg».proof.Defs
import Idealize.ShloMosaic.Lib.ReduceAll
import Idealize.ShloMosaic.Lib.ValueIdx

noncomputable section

namespace Cert.KernelIdeal.Vals

open Cert.KernelIdeal
open Idealize.ShloMosaic Idealize.ShloMosaic.TcCoe Idealize.ShloMosaic.ValueIdx Idealize.SL.Sem

variable [Cert.Pre_finite_inputs.Facts]

namespace PreRange

-- a 32-bit word that is ≥ 0 and < 100000 read signed is < 100000 read unsigned
theorem toNat_lt_of_signed (w : BitVec 32) (h0 : IntOp.cmpi .sge w 0#32 = 1#1)
    (h1 : IntOp.cmpi .slt w 100000#32 = 1#1) : w.toNat < 100000 := by
  rw [IntOp.cmpi_sge, show (0#32 : BitVec 32).toInt = 0 by decide] at h0
  rw [IntOp.cmpi_slt, show (100000#32 : BitVec 32).toInt = 100000 by decide] at h1
  have hw := w.isLt
  unfold BitVec.toInt at h0 h1
  split at h0 <;> omega

end PreRange

theorem src_range (m : (ℓ : Loc nD τ sig) → Buf (Elt Ideal) ℓ) (h : Cert.Pre_KernelIdeal m) (c : Dev nD)
    (e : Fin 1600000) :
    ((m ((c : Thread nD τ).loc main_arg6) : (⟨1, ![1600000]⟩ : Shape).Idx → BitVec 32) (ix1 e)).toNat < 100000 := by

  haveI : Subsingleton Cert.Pre_finite_inputs.S_.Idx := ⟨fun a b => funext fun d => d.elim0⟩
  have e0 := congrFun (h c) ix0
  dsimp only [Cert.Pre_finite_inputs.fn, Cert.Pre_finite_inputs.fn_part1, Cert.Pre_finite_inputs.fn_part2, andi] at e0
  have hred := (IntOp.andi_eq_one.1 e0).2
  have hall := Host.reduce_andi_all _ _ _ _ _ hred (ix1 e)
  dsimp only [andi, cmpi, broadcastInDim, constantI] at hall
  obtain ⟨h0, h1⟩ := IntOp.andi_eq_one.1 hall
  exact PreRange.toNat_lt_of_signed _ h0 h1

end Cert.KernelIdeal.Vals

end
-- ==== Proof.RefTerm.lean ====
import proofs.«414299_j48155173322928_2_alg».proof.Proof.Gen.ReferenceIdeal

noncomputable section

namespace Cert.ReferenceIdeal.RefValue

open Cert.ReferenceIdeal Cert.ReferenceIdeal.Gen Idealize.ShloMosaic

variable {F : FTy → Type} [FloatOps F]

def srcColT (x6 : Vec F S1600000 .i32) : Vec F S1600000x1 .i32 :=
  broadcastInDim S1600000x1 ![0] bcast_S1600000_S1600000x1_0
    (select (cmpi .slt x6 (broadcastInDim S1600000 ![] bcast_S_S1600000 (constantI S_ 32 0#32)))
      (addi x6 (broadcastInDim S1600000 ![] bcast_S_S1600000 (constantI S_ 32 100000#32))) x6)

def aggT64 (x5 : Vec F S1600000 .f32) (x6 x7 : Vec F S1600000 .i32)
    (y : Vec F S100000x64 .f32) : Vec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 x7)
    (mulf (broadcastInDim S1600000x64 ![0, 1] bcast_S1600000x1_S1600000x64_0_1
        (broadcastInDim S1600000x1 ![0] bcast_S1600000_S1600000x1_0 x5))
      (Host.gather gather_S100000x64_S1600000x1_S1600000x64_1_0_n_n_0_1_164 y (srcColT (F := F) x6)))

def aggT40 (x5 : Vec F S1600000 .f32) (x6 x7 : Vec F S1600000 .i32)
    (y : Vec F S100000x40 .f32) : Vec F S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 x7)
    (mulf (broadcastInDim S1600000x40 ![0, 1] bcast_S1600000x1_S1600000x40_0_1
        (broadcastInDim S1600000x1 ![0] bcast_S1600000_S1600000x1_0 x5))
      (Host.gather gather_S100000x40_S1600000x1_S1600000x40_1_0_n_n_0_1_140 y (srcColT (F := F) x6)))

def biasT64 (x2 : Vec F S64 .f32) : Vec F S100000x64 .f32 :=
  broadcastInDim S100000x64 ![0, 1] bcast_S1x64_S100000x64_0_1 (broadcastInDim S1x64 ![1] bcast_S64_S1x64_1 x2)

def biasT40 (x4 : Vec F S40 .f32) : Vec F S100000x40 .f32 :=
  broadcastInDim S100000x40 ![0, 1] bcast_S1x40_S100000x40_0_1 (broadcastInDim S1x40 ![1] bcast_S40_S1x40_1 x4)

def reluT (s : Vec F S100000x64 .f32) : Vec F S100000x64 .f32 :=
  maximumf s (broadcastInDim S100000x64 ![] bcast_S_S100000x64 (constant S_ .f32 0x00000000#32))

def rowMaxT (z : Vec F S100000x40 .f32) : Vec F S100000 .f32 :=
  maximumf (broadcastInDim S100000 ![] bcast_S_S100000 (constant S_ .f32 0xFF800000#32))
    (Host.reduce FloatOps.maximumf z (constant S_ .f32 0xFF800000#32) reducesTo_S100000x40_S100000_d1 h_S_)

def centredT (z : Vec F S100000x40 .f32) : Vec F S100000x40 .f32 :=
  subf z (broadcastInDim S100000x40 ![0, 1] bcast_S100000x1_S100000x40_0_1
    (broadcastInDim S100000x1 ![0] bcast_S100000_S100000x1_0 (rowMaxT (F := F) z)))

def lsmT (z : Vec F S100000x40 .f32) : Vec F S100000x40 .f32 :=
  subf (centredT (F := F) z)
    (broadcastInDim S100000x40 ![0, 1] bcast_S100000x1_S100000x40_0_1
      (Host.log (broadcastInDim S100000x1 ![0] bcast_S100000_S100000x1_0
        (Host.reduceAdd (Host.exp (centredT (F := F) z)) (constant S_ .f32 0x00000000#32)
          reducesTo_S100000x40_S100000_d1 h_S_))))

def hiddenT (x0 : Vec F S100000x512 .f32) (x1 : Vec F S512x64 .f32)
    (x2 : Vec F S64 .f32) (x5 : Vec F S1600000 .f32)
    (x6 x7 : Vec F S1600000 .i32) : Vec F S100000x64 .f32 :=
  reluT (F := F) (addf (aggT64 (F := F) x5 x6 x7
    (Host.dotGeneral dot_S100000x512_S512x64_S100000x64_1_0_0_1_n_n none x0 x1)) (biasT64 (F := F) x2))

def refT (x0 : Vec F S100000x512 .f32) (x1 : Vec F S512x64 .f32)
    (x2 : Vec F S64 .f32) (x3 : Vec F S64x40 .f32)
    (x4 : Vec F S40 .f32) (x5 : Vec F S1600000 .f32)
    (x6 x7 : Vec F S1600000 .i32) : Vec F S100000x40 .f32 :=
  lsmT (F := F) (addf (aggT40 (F := F) x5 x6 x7
    (Host.dotGeneral dot_S100000x64_S64x40_S100000x40_1_0_0_1_n_n none (hiddenT (F := F) x0 x1 x2 x5 x6 x7) x3))
    (biasT40 (F := F) x4))

end Cert.ReferenceIdeal.RefValue

end
-- ==== Proof.RefRun.lean ====
import proofs.«414299_j48155173322928_2_alg».proof.Proof.RunPatched
import proofs.«414299_j48155173322928_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

-- The 58 operations in three stretches: the first layer (23), the second layer before its normalization (20), the logarithm of the softmax (15).
abbrev ops1 : List (HloOp τ sig (Elt F)) := Value.ops.take 23
abbrev ops2 : List (HloOp τ sig (Elt F)) := (Value.ops.drop 23).take 20
abbrev ops3 : List (HloOp τ sig (Elt F)) := (Value.ops.drop 23).drop 20

abbrev ops3p : List (HloOp τ sig (Elt F)) :=
  [ nullary main_call1_cst (constant S_ .f32 0xFF800000#32),
    binary main_v34 main_call1_cst main_call1_v0 (fun x v => Host.reduce FloatOps.maximumf x v reducesTo_S100000x40_S100000_d1 h_S_),
    nullary main_call1_cst_0 (constant S_ .f32 0xFF800000#32),
    unary main_call1_cst_0 main_call1_v1 (broadcastInDim S100000 ![] bcast_S_S100000),
    binary main_call1_v1 main_call1_v0 main_call1_v2 maximumf,
    unary main_call1_v2 main_call1_v3 (broadcastInDim S100000x1 ![0] bcast_S100000_S100000x1_0),
    unary main_call1_v3 main_call1_v4 (broadcastInDim S100000x40 ![0, 1] bcast_S100000x1_S100000x40_0_1),
    binary main_v34 main_call1_v4 main_call1_v5 subf,
    unary main_call1_v5 main_call1_v6 Host.exp,
    nullary main_call1_cst_1 (constant S_ .f32 0x00000000#32),
    binary main_call1_v6 main_call1_cst_1 main_call1_v7 (fun x v => Host.reduceAdd x v reducesTo_S100000x40_S100000_d1 h_S_),
    unary main_call1_v7 main_call1_v8 (broadcastInDim S100000x1 ![0] bcast_S100000_S100000x1_0),
    unary main_call1_v8 main_call1_v9 Host.log,
    unary main_call1_v9 main_call1_v10 (broadcastInDim S100000x40 ![0, 1] bcast_S100000x1_S100000x40_0_1),
    binary main_call1_v5 main_call1_v10 main_v35 subf ]

theorem tref_binary_plain (a b y : Ref sig .tc) (ha : a.space ≠ .host) (ha' : a.isScoped = false)
    (hb : b.space ≠ .host) (hb' : b.isScoped = false) (hy : y.space ≠ .host) (hy' : y.isScoped = false)
    (f : a.ty.Contents (Elt F) → b.ty.Contents (Elt F) → y.ty.Contents (Elt F)) :
    (TRef.binary (τ := τ) (⟨a, rfl, ha, ha'⟩ : TRef sig a.ty) (⟨b, rfl, hb, hb'⟩ : TRef sig b.ty) (⟨y, rfl, hy, hy'⟩ : TRef sig y.ty) f
        : HloOp τ sig (Elt F))
      = StableHlo.binary a b y f ⟨ha, ha'⟩ ⟨hb, hb'⟩ ⟨hy, hy'⟩ := rfl

set_option maxRecDepth 8192 in
-- The two spellings are one list: the row maximum's fold by the lemma above, every other operation by computation.
theorem ops3_plain : (ops3 : List (HloOp τ sig (Elt F))) = ops3p :=
  ((List.set_getElem_self (by show 1 < 15; decide)).symm.trans (congrArg (ops3.set 1)
    (tref_binary_plain main_v34 main_call1_cst main_call1_v0 (by decide) rfl (by decide) rfl (by decide) rfl
      (fun x v => Host.reduce FloatOps.maximumf x v reducesTo_S100000x40_S100000_d1 h_S_)))).trans rfl

-- Running a line is running its first n operations and then the rest.
theorem after_take_drop (n : ℕ) (l : List (HloOp τ sig (Elt F))) (V : Valuation τ sig (Elt F)) :
    after l V = after (l.drop n) (after (l.take n) V) := by
  induction l generalizing n V with
  | nil => simp only [List.drop_nil, List.take_nil, after_nil]
  | cons op l ih => cases n with
    | zero => rfl
    | succ n => exact ih n _

section Stretches
variable (W : Valuation τ sig (Elt F))
set_option maxRecDepth 8192
set_option maxHeartbeats 2000000

-- Each stretch from ANY contents W of the buffers it reads: it leaves one stage of the value at what W holds, and the first writes no argument.
theorem s1_main_v17 : (after ops1 W (Proc.devRef .tc main_v17) : Vec F S100000x64 .f32)
    = hiddenT (F := F) (W (Proc.devRef .tc main_arg0)) (W (Proc.devRef .tc main_arg1)) (W (Proc.devRef .tc main_arg2)) (W (Proc.devRef .tc main_arg5)) (W (Proc.devRef .tc main_arg6)) (W (Proc.devRef .tc main_arg7)) := by
  simp only [ops1, Value.ops, List.take]
  unfold hiddenT reluT aggT64 biasT64 srcColT
  after_results_simp <;> rfl
theorem s1_main_arg3 : after ops1 W (Proc.devRef .tc main_arg3) = W (Proc.devRef .tc main_arg3) := by
  simp only [ops1, Value.ops, List.take]
  after_results_simp <;> rfl
theorem s1_main_arg4 : after ops1 W (Proc.devRef .tc main_arg4) = W (Proc.devRef .tc main_arg4) := by
  simp only [ops1, Value.ops, List.take]
  after_results_simp <;> rfl
theorem s1_main_arg5 : after ops1 W (Proc.devRef .tc main_arg5) = W (Proc.devRef .tc main_arg5) := by
  simp only [ops1, Value.ops, List.take]
  after_results_simp <;> rfl
theorem s1_main_arg6 : after ops1 W (Proc.devRef .tc main_arg6) = W (Proc.devRef .tc main_arg6) := by
  simp only [ops1, Value.ops, List.take]
  after_results_simp <;> rfl
theorem s1_main_arg7 : after ops1 W (Proc.devRef .tc main_arg7) = W (Proc.devRef .tc main_arg7) := by
  simp only [ops1, Value.ops, List.take]
  after_results_simp <;> rfl

theorem s2_main_v34 : (after ops2 W (Proc.devRef .tc main_v34) : Vec F S100000x40 .f32)
    = addf (aggT40 (F := F) (W (Proc.devRef .tc main_arg5)) (W (Proc.devRef .tc main_arg6)) (W (Proc.devRef .tc main_arg7))
        (Host.dotGeneral dot_S100000x64_S64x40_S100000x40_1_0_0_1_n_n none (W (Proc.devRef .tc main_v17)) (W (Proc.devRef .tc main_arg3))))
      (biasT40 (F := F) (W (Proc.devRef .tc main_arg4))) := by
  simp only [ops2, Value.ops, List.take, List.drop]
  unfold aggT40 biasT40 srcColT
  after_results_simp <;> rfl

theorem s3_main_v35 : (after ops3 W (Proc.devRef .tc main_v35) : Vec F S100000x40 .f32)
    = lsmT (F := F) (W (Proc.devRef .tc main_v34)) := by
  rw [ops3_plain]
  unfold lsmT centredT rowMaxT
  after_results_simp <;> rfl
end Stretches

set_option maxRecDepth 8192 in
set_option maxHeartbeats 2000000 in
theorem res_eq_refT (m : (ℓ : Loc nD τ sig) → Buf (Elt F) ℓ) (c : Dev nD) :
    Value.res_main_v35 (F := F) m c
      = refT (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Value.res_main_v35
  rw [after_take_drop 23, after_take_drop 20 (List.drop 23 _)]
  refine (s3_main_v35 _).trans ?_
  rw [s2_main_v34, s1_main_v17, s1_main_arg3, s1_main_arg4, s1_main_arg5, s1_main_arg6, s1_main_arg7]
  rfl

end Cert.ReferenceIdeal.RefValue

end
-- ==== Proof.RefBase.lean ====
import Idealize.ShloMosaic.PureOps.Ideal
import Idealize.ShloMosaic.PureOps.Ideal.Laws
import Idealize.ShloMosaic.PureOps.Reduce
import Idealize.ShloMosaic.Lib.Pipeline.Value
import Idealize.ShloMosaic.Lib.StableHlo.Predicate
import proofs.«414299_j48155173322928_2_alg».proof.Proof.Spec

noncomputable section

namespace Cert.ReferenceIdeal.RefValue

open Idealize.ShloMosaic Idealize.ShloMosaic.ValueIdx Cert.Spec
open scoped BigOperators

section Gather
variable {α : Type}

abbrev rowGather (n e d : Nat)
    (wf : GatherDims.WF ⟨2, ![n, d]⟩ ⟨2, ![e, 1]⟩ ⟨2, ![e, d]⟩ [1] [0] [] [0] [] 1 ![1, d]) :
    GatherDims ⟨2, ![n, d]⟩ ⟨2, ![e, 1]⟩ ⟨2, ![e, d]⟩ where
  offsetDims := [1]
  collapsedSliceDims := [0]
  operandBatchingDims := []
  startIndicesBatchingDims := []
  startIndexMap := [0]
  indexVectorDim := 1
  sliceSizes := ![1, d]
  wf := wf

theorem rowGather_apply {n e d w : Nat} (hn : 0 < n)
    (wf : GatherDims.WF ⟨2, ![n, d]⟩ ⟨2, ![e, 1]⟩ ⟨2, ![e, d]⟩ [1] [0] [] [0] [] 1 ![1, d])
    (x : (⟨2, ![n, d]⟩ : Shape).Idx → α) (idx : IVec ⟨2, ![e, 1]⟩ w) (r : Fin e) (q : Fin d) :
    Host.gather (rowGather n e d wf) x idx (ix2 r q)
      = x (ix2 ⟨min (idx (ix2 r 0)).toInt.toNat (n - 1), by omega⟩ q) := by
  unfold Host.gather
  congr 1
  funext a
  refine Fin.ext ?_
  match a with
  | ⟨0, _⟩ =>
    show (rowGather n e d wf).start (ix2 r q) idx 0 + (rowGather n e d wf).batchCoord (ix2 r q) 0
      + (rowGather n e d wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather n e d wf).startIndexMap from List.mem_singleton.mpr rfl)]
    have hsi : (rowGather n e d wf).siIdx (ix2 r q) ⟨List.idxOf (0 : Fin 2) (rowGather n e d wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowGather n e d wf).start (ix2 r q) idx 1 + (rowGather n e d wf).batchCoord (ix2 r q) 1
      + (rowGather n e d wf).offCoord (ix2 r q) 1 = _
    rw [GatherDims.batchCoord_eq_zero _ _ _ List.not_mem_nil]
    unfold GatherDims.start
    rw [dif_neg (show ¬ (1 : Fin 2) ∈ (rowGather n e d wf).startIndexMap from fun h => absurd (congrArg Fin.val (List.mem_singleton.mp h)) Nat.one_ne_zero)]
    simp only [Nat.add_zero, Nat.zero_add]
    rfl

end Gather

section Scatter

abbrev rowScatter (n e d : Nat) (wf : ScatterDims.WF ⟨2, ![n, d]⟩ ⟨2, ![e, 1]⟩ ⟨2, ![e, d]⟩ [1] [0] [0] 1) :
    ScatterDims ⟨2, ![n, d]⟩ ⟨2, ![e, 1]⟩ ⟨2, ![e, d]⟩ where
  updateWindowDims := [1]
  insertedWindowDims := [0]
  scatterDimsToOperandDims := [0]
  indexVectorDim := 1
  wf := wf

theorem rowScatter_resultIdx_iff {n e d w : Nat} (wf : ScatterDims.WF ⟨2, ![n, d]⟩ ⟨2, ![e, 1]⟩ ⟨2, ![e, d]⟩ [1] [0] [0] 1)
    (idx : IVec ⟨2, ![e, 1]⟩ w) (r : Fin e) (q : Fin d) (i : (⟨2, ![n, d]⟩ : Shape).Idx) :
    (rowScatter n e d wf).resultIdx? (ix2 r q) idx = some i
      ↔ (idx (ix2 r 0)).toInt = ((i 0).val : ℤ) ∧ q.val = (i 1).val := by
  have hs0 : (rowScatter n e d wf).start (ix2 r q) idx 0 = (idx (ix2 r 0)).toInt := by
    unfold ScatterDims.start
    rw [dif_pos (show (0 : Fin 2) ∈ (rowScatter n e d wf).scatterDimsToOperandDims from List.mem_singleton.mpr rfl)]
    have hsi : (rowScatter n e d wf).siIdx (ix2 r q) ⟨List.idxOf (0 : Fin 2) (rowScatter n e d wf).scatterDimsToOperandDims,
        List.idxOf_lt_length_iff.2 (List.mem_singleton.mpr rfl)⟩ = ix2 r 0 := by
      funext b; refine Fin.ext ?_
      match b with
      | ⟨0, _⟩ => rfl
      | ⟨1, _⟩ => rfl
    rw [hsi]
  have hs1 : (rowScatter n e d wf).start (ix2 r q) idx 1 = 0 := by
    unfold ScatterDims.start
    rw [dif_neg (show ¬ (1 : Fin 2) ∈ (rowScatter n e d wf).scatterDimsToOperandDims from
      fun h => absurd (congrArg Fin.val (List.mem_singleton.mp h)) Nat.one_ne_zero)]
  have hw0 : (rowScatter n e d wf).window (ix2 r q) 0 = 0 := rfl
  have hw1 : (rowScatter n e d wf).window (ix2 r q) 1 = q.val := rfl
  have hi0 := idx2_lt0 i
  have hi1 := idx2_lt1 i
  unfold ScatterDims.resultIdx?
  split
  · rename_i h
    rw [Option.some.injEq]
    constructor
    · intro hf
      have h0 : ((rowScatter n e d wf).start (ix2 r q) idx 0 + (rowScatter n e d wf).window (ix2 r q) 0).toNat = (i 0).val :=
        congrArg (fun f => (f 0).val) hf
      have h1 : ((rowScatter n e d wf).start (ix2 r q) idx 1 + (rowScatter n e d wf).window (ix2 r q) 1).toNat = (i 1).val :=
        congrArg (fun f => (f 1).val) hf
      have hh := (h 0).1
      rw [hs0, hw0] at h0 hh
      rw [hs1, hw1] at h1
      exact ⟨by omega, by omega⟩
    · rintro ⟨h0, h1⟩
      funext a; refine Fin.ext ?_
      match a with
      | ⟨0, _⟩ =>
        show ((rowScatter n e d wf).start (ix2 r q) idx 0 + (rowScatter n e d wf).window (ix2 r q) 0).toNat = (i 0).val
        rw [hs0, hw0]; omega
      | ⟨1, _⟩ =>
        show ((rowScatter n e d wf).start (ix2 r q) idx 1 + (rowScatter n e d wf).window (ix2 r q) 1).toNat = (i 1).val
        rw [hs1, hw1]; omega
  · rename_i h
    constructor
    · intro hf; exact absurd hf (by simp)
    · rintro ⟨h0, h1⟩
      refine absurd (fun a => ?_) h
      match a with
      | ⟨0, _⟩ =>
        show 0 ≤ (rowScatter n e d wf).start (ix2 r q) idx 0 + (rowScatter n e d wf).window (ix2 r q) 0
          ∧ (rowScatter n e d wf).start (ix2 r q) idx 0 + (rowScatter n e d wf).window (ix2 r q) 0 < (n : ℤ)
        rw [hs0, hw0, h0]; constructor <;> omega
      | ⟨1, _⟩ =>
        show 0 ≤ (rowScatter n e d wf).start (ix2 r q) idx 1 + (rowScatter n e d wf).window (ix2 r q) 1
          ∧ (rowScatter n e d wf).start (ix2 r q) idx 1 + (rowScatter n e d wf).window (ix2 r q) 1 < (d : ℤ)
        rw [hs1, hw1]; have := q.isLt; constructor <;> omega

end Scatter

section ScatterAdd

theorem rowScatterAdd_apply {n e d w : Nat} (wf : ScatterDims.WF ⟨2, ![n, d]⟩ ⟨2, ![e, 1]⟩ ⟨2, ![e, d]⟩ [1] [0] [0] 1)
    (x : (⟨2, ![n, d]⟩ : Shape).Idx → EReal) (idx : IVec ⟨2, ![e, 1]⟩ w) (upd : (⟨2, ![e, d]⟩ : Shape).Idx → EReal)
    (v : Fin n) (q0 : Fin d) :
    Ideal.hostScatterAdd (rowScatter n e d wf) x idx upd (ix2 v q0)
      = x (ix2 v q0) + ∑ r : Fin e, if (idx (ix2 r 0)).toInt = (v.val : ℤ) then upd (ix2 r q0) else 0 := by
  unfold Ideal.hostScatterAdd
  congr 1
  rw [Finset.sum_filter, sum_idx2]
  refine Finset.sum_congr rfl fun r _ => ?_
  have key : ∀ q : Fin d, (if (rowScatter n e d wf).resultIdx? (ix2 r q) idx = some (ix2 v q0) then upd (ix2 r q) else 0)
      = if (idx (ix2 r 0)).toInt = (v.val : ℤ) ∧ q = q0 then upd (ix2 r q) else 0 := fun q =>
    if_congr ((rowScatter_resultIdx_iff wf idx r q (ix2 v q0)).trans
      (and_congr Iff.rfl (Fin.ext_iff (a := q) (b := q0)).symm)) rfl rfl
  rw [Finset.sum_congr rfl fun q _ => key q]
  by_cases hA : (idx (ix2 r 0)).toInt = (v.val : ℤ)
  · simp only [hA, true_and, if_true]
    rw [Finset.sum_ite_eq' Finset.univ q0 (fun q => upd (ix2 r q)), if_pos (Finset.mem_univ _)]
  · simp only [hA, false_and, if_false, Finset.sum_const_zero]

end ScatterAdd

section Broadcast
variable {α : Type}

-- A coordinate below n is 0 when n = 1.
theorem ite_one (n : Nat) (p : Fin n) : p.val = if n = 1 then 0 else p.val := by
  have := p.isLt
  split <;> omega

-- A vector as a column or as a row, and a column or a row repeated along the other axis, read at an entry.
theorem bcast_col {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) :=
  broadcastInDim_apply _ h v _ _ fun a => match a with | ⟨0, _⟩ => ite_one n p
theorem bcast_row {m : Nat} (h : (⟨1, ![m]⟩ : Shape).BroadcastsInDim ⟨2, ![1, m]⟩ ![1])
    (v : (⟨1, ![m]⟩ : Shape).Idx → α) (z : Fin 1) (q : Fin m) :
    broadcastInDim ⟨2, ![1, m]⟩ ![1] h v (ix2 z q) = v (ix1 q) :=
  broadcastInDim_apply _ h v _ _ fun a => match a with | ⟨0, _⟩ => ite_one m q
theorem bcast_of_col {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) :=
  broadcastInDim_apply _ h v _ _ fun a => match a with | ⟨0, _⟩ => ite_one n p | ⟨1, _⟩ => rfl
theorem bcast_of_row {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) :=
  broadcastInDim_apply _ h v _ _ fun a => match a with | ⟨0, _⟩ => rfl | ⟨1, _⟩ => ite_one m q

end Broadcast

theorem zeros_apply {t : Shape} (hbz : (⟨0, ![]⟩ : Shape).BroadcastsInDim t ![]) (j : t.Idx) :
    broadcastInDim t ![] hbz (constant (F := Ideal) ⟨0, ![]⟩ .f32 0x00000000#32) j = (0 : EReal) := by
  rw [StableHlo.Predicate.bcast_scalar hbz (by decide), constant_apply, Ideal.ofBits_zero_f32]

end Cert.ReferenceIdeal.RefValue

end
-- ==== Proof.RefAgg.lean ====
import proofs.«414299_j48155173322928_2_alg».proof.Proof.RefBase
import proofs.«414299_j48155173322928_2_alg».proof.Proof.Spec
import Idealize.ShloMosaic.Lib.StableHlo.Predicate
import Idealize.ShloMosaic.Lib.ValueIdx

noncomputable section

namespace Cert.ReferenceIdeal.RefValue

open Idealize.ShloMosaic Idealize.ShloMosaic.ValueIdx Cert.Spec
open scoped BigOperators

theorem toInt_eq_iff_small (w : BitVec 32) (v : Nat) (hv : v < 2 ^ 31) : w.toInt = (v : ℤ) ↔ w = BitVec.ofNat 32 v := by
  rw [← BitVec.toNat_inj, BitVec.toNat_ofNat, BitVec.toInt_eq_toNat_cond]
  have := w.isLt
  split <;> omega

theorem toInt_toNat_small (w : BitVec 32) (h : w.toNat < 2 ^ 31) : w.toInt.toNat = w.toNat := by
  rw [BitVec.toInt_eq_toNat_cond]
  split <;> omega

theorem wrap_small (s nw : BitVec 32) (h : s.toNat < 2 ^ 31) :
    Scalar.select (IntOp.cmpi .slt s 0#32) (IntOp.addi s nw) s = s := by
  unfold Scalar.select
  refine if_neg fun hc => ?_
  have hlt := (StableHlo.Predicate.slt_iff_toNat (a := s) (b := 0#32) h (by decide)).mp hc
  exact Nat.not_lt_zero _ hlt

theorem wrapped_apply {e : Nat} (n : Nat) (hb0 : (⟨0, ![]⟩ : Shape).BroadcastsInDim ⟨1, ![e]⟩ ![]) (src : I1 e) (r : Fin e)
    (hs : (src (ix1 r)).toNat < 2 ^ 31) :
    select (cmpi .slt src (broadcastInDim ⟨1, ![e]⟩ ![] hb0 (constantI ⟨0, ![]⟩ 32 0#32)))
      (addi src (broadcastInDim ⟨1, ![e]⟩ ![] hb0 (constantI ⟨0, ![]⟩ 32 (BitVec.ofNat 32 n)))) src (ix1 r) = src (ix1 r) := by
  have hz0 : broadcastInDim ⟨1, ![e]⟩ ![] hb0 (constantI ⟨0, ![]⟩ 32 0#32) (ix1 r) = 0#32 := by
    rw [StableHlo.Predicate.bcast_scalar hb0 (by decide)]; rfl
  show Scalar.select (IntOp.cmpi .slt (src (ix1 r)) (broadcastInDim ⟨1, ![e]⟩ ![] hb0 (constantI ⟨0, ![]⟩ 32 0#32) (ix1 r)))
    (IntOp.addi (src (ix1 r)) _) (src (ix1 r)) = _
  rw [hz0]
  exact wrap_small _ _ hs

theorem scatterAdd_eq {s si u : Shape} {w : Nat} (d : ScatterDims s si u) (x : FVec Ideal s .f32) (idx : IVec si w)
    (upd : FVec Ideal u .f32) :
    Host.scatterAdd (F := Ideal) (φ := .f32) d x idx upd = Ideal.hostScatterAdd d x idx upd := rfl

theorem agg_stage {n e d : Nat} (hn : 0 < n) (hn' : n < 2 ^ 31)
    (gwf : GatherDims.WF ⟨2, ![n, d]⟩ ⟨2, ![e, 1]⟩ ⟨2, ![e, d]⟩ [1] [0] [] [0] [] 1 ![1, d])
    (swf : ScatterDims.WF ⟨2, ![n, d]⟩ ⟨2, ![e, 1]⟩ ⟨2, ![e, d]⟩ [1] [0] [0] 1)
    (hz : (⟨0, ![]⟩ : Shape).BroadcastsInDim ⟨2, ![n, d]⟩ ![]) (hb0 : (⟨0, ![]⟩ : Shape).BroadcastsInDim ⟨1, ![e]⟩ ![])
    (hc : (⟨1, ![e]⟩ : Shape).BroadcastsInDim ⟨2, ![e, 1]⟩ ![0]) (hcc : (⟨2, ![e, 1]⟩ : Shape).BroadcastsInDim ⟨2, ![e, d]⟩ ![0, 1])
    (adj : R1 e) (src dst : I1 e) (y : R2 n d) (hsrc : ∀ r : Fin e, (src (ix1 r)).toNat < n) (v : Fin n) (q : Fin d) :
    Host.scatterAdd (F := Ideal) (φ := .f32) (rowScatter n e d swf)
        (broadcastInDim ⟨2, ![n, d]⟩ ![] hz (constant (F := Ideal) ⟨0, ![]⟩ .f32 0x00000000#32))
        (broadcastInDim ⟨2, ![e, 1]⟩ ![0] hc dst)
        (mulf (F := Ideal) (φ := .f32) (broadcastInDim ⟨2, ![e, d]⟩ ![0, 1] hcc (broadcastInDim ⟨2, ![e, 1]⟩ ![0] hc adj))
          (Host.gather (rowGather n e d gwf) y (broadcastInDim ⟨2, ![e, 1]⟩ ![0] hc
            (select (cmpi .slt src (broadcastInDim ⟨1, ![e]⟩ ![] hb0 (constantI ⟨0, ![]⟩ 32 0#32)))
              (addi src (broadcastInDim ⟨1, ![e]⟩ ![] hb0 (constantI ⟨0, ![]⟩ 32 (BitVec.ofNat 32 n)))) src)))) (ix2 v q)
      = ∑ r : Fin e, if dst (ix1 r) = BitVec.ofNat 32 v.val then adj (ix1 r) * y (ix2 ⟨(src (ix1 r)).toNat, hsrc r⟩ q) else 0 := by
  rw [scatterAdd_eq, rowScatterAdd_apply, zeros_apply, zero_add]
  refine Finset.sum_congr rfl fun r _ => ?_
  have hs : (src (ix1 r)).toNat < 2 ^ 31 := lt_trans (hsrc r) hn'
  rw [bcast_col hc dst r 0, mulf_apply, bcast_of_col hcc _ r q, bcast_col hc adj r 0, rowGather_apply hn gwf y _ r q]
  refine if_congr (toInt_eq_iff_small _ _ (lt_trans v.isLt hn')) ?_ rfl
  refine congrArg (adj (ix1 r) * ·) (congrArg y (congrArg (fun a : Fin n => ix2 a q) (Fin.ext ?_)))
  show min (BitVec.toInt (broadcastInDim (s := ⟨1, ![e]⟩) (α := BitVec 32) ⟨2, ![e, 1]⟩ ![0] hc
      (select (cmpi .slt src (broadcastInDim ⟨1, ![e]⟩ ![] hb0 (constantI ⟨0, ![]⟩ 32 0#32)))
        (addi src (broadcastInDim ⟨1, ![e]⟩ ![] hb0 (constantI ⟨0, ![]⟩ 32 (BitVec.ofNat 32 n)))) src) (ix2 r 0))).toNat (n - 1)
    = (src (ix1 r)).toNat
  rw [bcast_col hc _ r 0, wrapped_apply n hb0 src r hs, toInt_toNat_small _ hs]
  exact Nat.min_eq_left (by have := hsrc r; omega)

end Cert.ReferenceIdeal.RefValue

end
-- ==== Proof.RefDense.lean ====
import Idealize.ShloMosaic.PureOps.Ideal.Laws
import Idealize.ShloMosaic.Lib.Pipeline.Value
import proofs.«414299_j48155173322928_2_alg».proof.Proof.Spec

noncomputable section

namespace Cert.ReferenceIdeal.RefValue

open Idealize.ShloMosaic Idealize.ShloMosaic.ValueIdx Cert.Spec
open scoped BigOperators

-- A plain rows-by-columns product on the host is the specification's dense product: entry (r, c) is the sum over t of x (r, t) · w (t, c).
theorem dense_stage {n k m : ℕ} (x : R2 n k) (w : R2 k m) :
    Host.dotGeneral (F := Ideal) (φ₁ := .f32) (φ₂ := .f32) (DotDims.plain n k m) none x w = dense x w := by
  funext i
  simp only [Host.dotGeneral]
  rw [Ideal.dotGeneral_apply, ← Equiv.sum_comp (contrEquiv1 (DotDims.plain n k m) k rfl rfl).symm]
  refine Finset.sum_congr rfl fun t _ => ?_
  congr 2 <;> exact Shape.idx_ext₂ rfl rfl

end Cert.ReferenceIdeal.RefValue

end
-- ==== Proof.RefLsm.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.StableHlo.Predicate
import proofs.«414299_j48155173322928_2_alg».proof.Proof.Spec
import proofs.«414299_j48155173322928_2_alg».proof.Proof.RefBase

noncomputable section

namespace Cert.ReferenceIdeal.RefValue

open Idealize.ShloMosaic Idealize.ShloMosaic.ValueIdx Cert.Spec
open scoped BigOperators

section Relu
variable {d : Nat}

theorem relu_bias_stage
    (hbr : (⟨1, ![d]⟩ : Shape).BroadcastsInDim ⟨2, ![1, d]⟩ ![1])
    (hbm : (⟨2, ![1, d]⟩ : Shape).BroadcastsInDim ⟨2, ![100000, d]⟩ ![0, 1])
    (hbz : (⟨0, ![]⟩ : Shape).BroadcastsInDim ⟨2, ![100000, d]⟩ ![])
    (s : R2 100000 d) (b : R1 d) :
    maximumf (F := Ideal) (φ := .f32)
      (addf (F := Ideal) (φ := .f32) s
        (broadcastInDim ⟨2, ![100000, d]⟩ ![0, 1] hbm (broadcastInDim ⟨2, ![1, d]⟩ ![1] hbr b)))
      (broadcastInDim ⟨2, ![100000, d]⟩ ![] hbz (constant (F := Ideal) ⟨0, ![]⟩ .f32 0x00000000#32))
      = reluBias s (biasRow b) := by
  funext i
  obtain ⟨v, q, rfl⟩ : ∃ (v : Fin 100000) (q : Fin d), i = ix2 v q := ⟨i 0, i 1, eq_ix2 i⟩
  rw [maximumf_apply, addf_apply, bcast_of_row, bcast_row, zeros_apply hbz]
  rfl

end Relu

section LogSoftmax
variable {d : Nat}

theorem max_fold_self (b : EReal) (z : Fin d → EReal) :
    max b ((Finset.univ : Finset (Fin d)).fold max b z) = (Finset.univ : Finset (Fin d)).fold max b z :=
  max_eq_right ((Finset.le_fold_max b).mpr (Or.inl le_rfl))

theorem lift_row (hred : (⟨2, ![100000, d]⟩ : Shape).Reduces [1] ⟨1, ![100000]⟩) (v : Fin 100000) (k : Fin d) :
    hred.lift (ix1 v) k = ix2 v k := by
  funext c
  refine Fin.ext ?_
  match c with
  | ⟨0, _⟩ => rfl
  | ⟨1, _⟩ => rfl

theorem hlog_apply {s : Shape} (x : FVec Ideal s .f32) (i : s.Idx) :
    Host.log (F := Ideal) (φ := .f32) x i = Ideal.log (x i) := rfl
theorem hexp_apply {s : Shape} (x : FVec Ideal s .f32) (i : s.Idx) :
    Host.exp (F := Ideal) (φ := .f32) x i = Ideal.exp (x i) := rfl
theorem hsum_apply {s t u : Shape} {axes : List (Fin s.rank)} (x : FVec Ideal s .f32) (init : u.Idx → Ideal .f32)
    (h : s.ReducesTo axes t) (hu : 0 < u.numel) (j : t.Idx) :
    Host.reduceAdd (F := Ideal) (φ := .f32) x init h hu j = Ideal.hostReduceAdd h x (init (Shape.Idx.first hu)) j := rfl

theorem row_max_stage
    (hred' : (⟨2, ![100000, d]⟩ : Shape).ReducesTo [1] ⟨1, ![100000]⟩)
    (hred : (⟨2, ![100000, d]⟩ : Shape).Reduces [1] ⟨1, ![100000]⟩)
    (hu : 0 < (⟨0, ![]⟩ : Shape).numel)
    (hbs : (⟨0, ![]⟩ : Shape).BroadcastsInDim ⟨1, ![100000]⟩ ![])
    (z : R2 100000 d) (v : Fin 100000) :
    maximumf (F := Ideal) (φ := .f32)
        (broadcastInDim ⟨1, ![100000]⟩ ![] hbs (constant (F := Ideal) ⟨0, ![]⟩ .f32 0xFF800000#32))
        (Host.reduce (FloatOps.maximumf (F := Ideal) (φ := .f32)) z
          (constant (F := Ideal) ⟨0, ![]⟩ .f32 0xFF800000#32) hred' hu) (ix1 v)
      = rowMax (fun j : Fin d => z (ix2 v j)) := by
  rw [maximumf_apply, StableHlo.Predicate.bcast_scalar hbs hu, constant_apply,
    Host.reduce_eq_fold_single _ _ _ hred' hred hu (ix1 v), constant_apply]
  have hz : (z ∘ hred.lift (ix1 v)) = fun j : Fin d => z (ix2 v j) :=
    funext fun k => congrArg z (lift_row hred v k)
  rw [hz]
  exact max_fold_self _ _

-- The centred entries: at (v, q), z (v, q) less the maximum of row v.
theorem centred_stage
    (hred' : (⟨2, ![100000, d]⟩ : Shape).ReducesTo [1] ⟨1, ![100000]⟩)
    (hred : (⟨2, ![100000, d]⟩ : Shape).Reduces [1] ⟨1, ![100000]⟩)
    (hu : 0 < (⟨0, ![]⟩ : Shape).numel)
    (hbs : (⟨0, ![]⟩ : Shape).BroadcastsInDim ⟨1, ![100000]⟩ ![])
    (hbc : (⟨1, ![100000]⟩ : Shape).BroadcastsInDim ⟨2, ![100000, 1]⟩ ![0])
    (hbm : (⟨2, ![100000, 1]⟩ : Shape).BroadcastsInDim ⟨2, ![100000, d]⟩ ![0, 1])
    (z : R2 100000 d) (v : Fin 100000) (q : Fin d) :
    subf (F := Ideal) (φ := .f32) z
        (broadcastInDim ⟨2, ![100000, d]⟩ ![0, 1] hbm (broadcastInDim ⟨2, ![100000, 1]⟩ ![0] hbc
          (maximumf (F := Ideal) (φ := .f32)
            (broadcastInDim ⟨1, ![100000]⟩ ![] hbs (constant (F := Ideal) ⟨0, ![]⟩ .f32 0xFF800000#32))
            (Host.reduce (FloatOps.maximumf (F := Ideal) (φ := .f32)) z
              (constant (F := Ideal) ⟨0, ![]⟩ .f32 0xFF800000#32) hred' hu)))) (ix2 v q)
      = z (ix2 v q) - rowMax (fun j : Fin d => z (ix2 v j)) := by
  rw [subf_apply, bcast_of_col, bcast_col, row_max_stage hred' hred hu hbs z v]

-- From centred entries C the rest of the logarithm of the softmax: at (v, q), C (v, q) − log ∑ exp C (v, j).
theorem lsm_stage
    (hred' : (⟨2, ![100000, d]⟩ : Shape).ReducesTo [1] ⟨1, ![100000]⟩)
    (hred : (⟨2, ![100000, d]⟩ : Shape).Reduces [1] ⟨1, ![100000]⟩)
    (hu : 0 < (⟨0, ![]⟩ : Shape).numel)
    (hbc : (⟨1, ![100000]⟩ : Shape).BroadcastsInDim ⟨2, ![100000, 1]⟩ ![0])
    (hbm : (⟨2, ![100000, 1]⟩ : Shape).BroadcastsInDim ⟨2, ![100000, d]⟩ ![0, 1])
    (z C : R2 100000 d) (hC : ∀ (v : Fin 100000) (q : Fin d), C (ix2 v q) = z (ix2 v q) - rowMax (fun j : Fin d => z (ix2 v j))) :
    subf (F := Ideal) (φ := .f32) C
      (broadcastInDim ⟨2, ![100000, d]⟩ ![0, 1] hbm (Host.log (F := Ideal) (φ := .f32)
        (broadcastInDim ⟨2, ![100000, 1]⟩ ![0] hbc
          (Host.reduceAdd (F := Ideal) (φ := .f32) (Host.exp (F := Ideal) (φ := .f32) C)
            (constant (F := Ideal) ⟨0, ![]⟩ .f32 0x00000000#32) hred' hu))))
      = fun i => lsmRow (fun j : Fin d => z (ix2 (i 0) j)) (i 1) := by
  funext i
  obtain ⟨v, q, rfl⟩ : ∃ (v : Fin 100000) (q : Fin d), i = ix2 v q := ⟨i 0, i 1, eq_ix2 i⟩
  rw [subf_apply, hC v q, bcast_of_col, hlog_apply, bcast_col, hsum_apply, Ideal.hostReduceAdd_single hred' hred,
    constant_apply, Ideal.ofBits_zero_f32, zero_add]
  have hs : ∀ k : Fin d, Host.exp (F := Ideal) (φ := .f32) C (hred.lift (ix1 v) k)
      = Ideal.exp (z (ix2 v k) - rowMax (fun j : Fin d => z (ix2 v j))) := fun k => by rw [lift_row hred v k, hexp_apply, hC v k]
  exact (congrArg (fun S : EReal => (z (ix2 v q) - rowMax (fun j : Fin d => z (ix2 v j))) - Ideal.log S)
    (Finset.sum_congr rfl fun k _ => hs k)).trans rfl

theorem lsm_bias_stage
    (hbr : (⟨1, ![d]⟩ : Shape).BroadcastsInDim ⟨2, ![1, d]⟩ ![1])
    (hbb : (⟨2, ![1, d]⟩ : Shape).BroadcastsInDim ⟨2, ![100000, d]⟩ ![0, 1])
    (s : R2 100000 d) (b : R1 d) :
    (fun i => lsmRow (fun j : Fin d =>
        addf (F := Ideal) (φ := .f32) s
          (broadcastInDim ⟨2, ![100000, d]⟩ ![0, 1] hbb (broadcastInDim ⟨2, ![1, d]⟩ ![1] hbr b)) (ix2 (i 0) j)) (i 1))
      = lsmBias s (biasRow b) := by
  have e : ∀ (v : Fin 100000) (j : Fin d),
      addf (F := Ideal) (φ := .f32) s
          (broadcastInDim ⟨2, ![100000, d]⟩ ![0, 1] hbb (broadcastInDim ⟨2, ![1, d]⟩ ![1] hbr b)) (ix2 v j)
        = s (ix2 v j) + biasRow b (ix2 0 j) := fun v j => by
    rw [addf_apply, bcast_of_row, bcast_row]
    rfl
  funext i
  unfold lsmBias
  exact congrArg (fun f => lsmRow f (i 1)) (funext fun j => e (i 0) j)

end LogSoftmax

end Cert.ReferenceIdeal.RefValue

end
-- ==== Proof.RefCompose.lean ====
import proofs.«414299_j48155173322928_2_alg».proof.Proof.RefTerm
import proofs.«414299_j48155173322928_2_alg».proof.Proof.RefBase
import proofs.«414299_j48155173322928_2_alg».proof.Proof.RefAgg
import proofs.«414299_j48155173322928_2_alg».proof.Proof.RefDense
import proofs.«414299_j48155173322928_2_alg».proof.Proof.RefLsm
import proofs.«414299_j48155173322928_2_alg».proof.Proof.Spec

noncomputable section

namespace Cert.ReferenceIdeal.RefValue

open Cert.ReferenceIdeal Cert.ReferenceIdeal.Gen Idealize.ShloMosaic Idealize.ShloMosaic.ValueIdx Cert.Spec
open scoped BigOperators

theorem dd64 : dot_S100000x512_S512x64_S100000x64_1_0_0_1_n_n
    = DotDims.plain 100000 512 64 := rfl
theorem dd40 : dot_S100000x64_S64x40_S100000x40_1_0_0_1_n_n
    = DotDims.plain 100000 64 40 := rfl

theorem spmm_apply {d : Nat} (adj : R1 1600000) (src dst : I1 1600000) (y : R2 100000 d) (v : Fin 100000) (q : Fin d) :
    spmm adj src dst y (ix2 v q) = ∑ e : Fin 1600000,
      (if dst (ix1 e) = BitVec.ofNat 32 v.val then adj (ix1 e) * y (ix2 (node (src (ix1 e))) q) else 0) := rfl

-- One aggregation of any width d, as the reference spells it, is A · y: a source word below 100000 names the node of its value.
theorem agg_eq {d : Nat} (swf gwf hz hcc) (x5 : R1 1600000) (x6 x7 : I1 1600000) (y : R2 100000 d)
    (hsrc : ∀ e : Fin 1600000, (x6 (ix1 e)).toNat < 100000) :
    Host.scatterAdd (F := Ideal) (φ := .f32) (rowScatter 100000 1600000 d swf)
        (broadcastInDim ⟨2, ![100000, d]⟩ ![] hz (constant (F := Ideal) ⟨0, ![]⟩ .f32 0x00000000#32))
        (broadcastInDim S1600000x1 ![0] bcast_S1600000_S1600000x1_0 x7)
        (mulf (F := Ideal) (φ := .f32) (broadcastInDim ⟨2, ![1600000, d]⟩ ![0, 1] hcc
            (broadcastInDim S1600000x1 ![0] bcast_S1600000_S1600000x1_0 x5))
          (Host.gather (rowGather 100000 1600000 d gwf) y (srcColT (F := Ideal) x6)))
      = spmm x5 x6 x7 y := by
  funext i
  obtain ⟨v, q, rfl⟩ : ∃ (v : Fin 100000) (q : Fin d), i = ix2 v q := ⟨i 0, i 1, eq_ix2 i⟩
  unfold srcColT
  refine (agg_stage (by decide) (by decide) gwf swf hz bcast_S_S1600000 bcast_S1600000_S1600000x1_0 hcc x5 x6 x7 y hsrc v q).trans ?_
  rw [spmm_apply]
  refine Finset.sum_congr rfl fun r _ => if_congr Iff.rfl ?_ rfl
  exact congrArg (fun a : Fin 100000 => x5 (ix1 r) * y (ix2 a q)) (Fin.ext (Nat.mod_eq_of_lt (hsrc r)).symm)

theorem agg64 (x5 : R1 1600000) (x6 x7 : I1 1600000) (y : R2 100000 64)
    (hsrc : ∀ e : Fin 1600000, (x6 (ix1 e)).toNat < 100000) :
    aggT64 (F := Ideal) x5 x6 x7 y = spmm x5 x6 x7 y := agg_eq _ _ _ _ x5 x6 x7 y hsrc

theorem agg40 (x5 : R1 1600000) (x6 x7 : I1 1600000) (y : R2 100000 40)
    (hsrc : ∀ e : Fin 1600000, (x6 (ix1 e)).toNat < 100000) :
    aggT40 (F := Ideal) x5 x6 x7 y = spmm x5 x6 x7 y := agg_eq _ _ _ _ x5 x6 x7 y hsrc

theorem hidden_eq (x0 : R2 100000 512) (x1 : R2 512 64) (x2 : R1 64) (x5 : R1 1600000) (x6 x7 : I1 1600000)
    (hsrc : ∀ e : Fin 1600000, (x6 (ix1 e)).toNat < 100000) :
    hiddenT (F := Ideal) x0 x1 x2 x5 x6 x7 = reluBias (spmm x5 x6 x7 (dense x0 x1)) (biasRow x2) := by
  unfold hiddenT
  rw [dd64, dense_stage, agg64 x5 x6 x7 _ hsrc]
  unfold reluT biasT64
  exact relu_bias_stage bcast_S64_S1x64_1 bcast_S1x64_S100000x64_0_1 bcast_S_S100000x64 _ x2

theorem lsm40 (s : R2 100000 40) (b : R1 40) :
    lsmT (F := Ideal) (addf (F := Ideal) (φ := .f32) s (biasT40 (F := Ideal) b)) = lsmBias s (biasRow b) := by
  unfold lsmT biasT40
  exact (lsm_stage reducesTo_S100000x40_S100000_d1 (by decide) h_S_ bcast_S100000_S100000x1_0 bcast_S100000x1_S100000x40_0_1 _ _
      fun v q => centred_stage reducesTo_S100000x40_S100000_d1 (by decide) h_S_ bcast_S_S100000 bcast_S100000_S100000x1_0
        bcast_S100000x1_S100000x40_0_1 _ v q).trans
    (lsm_bias_stage bcast_S40_S1x40_1 bcast_S1x40_S100000x40_0_1 s b)

theorem refT_eq (x0 : R2 100000 512) (x1 : R2 512 64) (x2 : R1 64) (x3 : R2 64 40) (x4 : R1 40) (x5 : R1 1600000)
    (x6 x7 : I1 1600000) (hsrc : ∀ e : Fin 1600000, (x6 (ix1 e)).toNat < 100000) :
    refT (F := Ideal) x0 x1 x2 x3 x4 x5 x6 x7 = forward x0 x1 x2 x3 x4 x5 x6 x7 := by
  unfold refT
  rw [hidden_eq x0 x1 x2 x5 x6 x7 hsrc, dd40, dense_stage, agg40 x5 x6 x7 _ hsrc, lsm40]
  rfl

end Cert.ReferenceIdeal.RefValue

end
-- ==== Proof.RefValue.lean ====
import proofs.«414299_j48155173322928_2_alg».proof.Proof.RefRun
import proofs.«414299_j48155173322928_2_alg».proof.Proof.RefCompose

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Spec

theorem ref_eq (m' : (ℓ : Loc nD τ sig) → Buf (Elt Ideal) ℓ) (c : Dev nD)
    (hsrc : ∀ e : Fin 1600000, ((m' ((c.tc : Thread nD τ).loc main_arg6) : I1 1600000) (ix1 e)).toNat < 100000) :
    (Cert.ReferenceIdeal.Value.res_main_v35 (F := Ideal) m' c : R2 100000 40)
      = forward (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7)) :=
  (res_eq_refT m' c).trans (refT_eq _ _ _ _ _ _ _ _ hsrc)

end Cert.ReferenceIdeal.RefValue

end
-- ==== Proof.lean ====
/-
  out = log_softmax(A · relu(A · (x W1) + b1) · W2 + b2), A the sparse matrix of the weighted edges (dst, src, adj).
  A product with a 0/1 matrix selects terms (0 · a = 0 and 1 · a = a for every extended real a), and a sum taken
  block by block is one finite sum regrouped: so the blocked and the direct computation agree wherever every
  source index names a node.
-/
import proofs.«414299_j48155173322928_2_alg».proof.Defs
import proofs.«414299_j48155173322928_2_alg».proof.Proof.Gen.Kernel
import proofs.«414299_j48155173322928_2_alg».proof.Proof.Gen.KernelIdeal
import proofs.«414299_j48155173322928_2_alg».proof.Proof.Gen.ReferenceIdeal
import proofs.«414299_j48155173322928_2_alg».proof.Proof.Gen.Pre_finite_inputs
import proofs.«414299_j48155173322928_2_alg».proof.Proof.BitsLaunchRun
import proofs.«414299_j48155173322928_2_alg».proof.Proof.LaunchRun
import proofs.«414299_j48155173322928_2_alg».proof.Proof.ValueRun
import proofs.«414299_j48155173322928_2_alg».proof.Proof.Algebra
import proofs.«414299_j48155173322928_2_alg».proof.Proof.PreRange
import proofs.«414299_j48155173322928_2_alg».proof.Proof.RunPatched
import proofs.«414299_j48155173322928_2_alg».proof.Proof.RefValue
import Idealize.ShloMosaic.Adequacy
import Idealize.ShloMosaic.Init

noncomputable section

open Idealize.ShloMosaic Idealize.ShloMosaic.TcCoe Idealize.SL.Sem

namespace Cert.Proof

theorem frame_k : Cert.frame_Kernel (hKernel := Cert.Kernel.Gen.facts) (hPre_finite_inputs := Cert.Pre_finite_inputs.Gen.facts) :=
  fun m ρ _ => Cert.Kernel.Tiles.frame m ρ

theorem frame_ki : Cert.frame_KernelIdeal (hKernelIdeal := Cert.KernelIdeal.Gen.facts) (hPre_finite_inputs := Cert.Pre_finite_inputs.Gen.facts) :=
  fun m ρ _ => Cert.KernelIdeal.Tiles.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => (Cert.Spec.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) : Cert.Spec.R2 100000 40), ?_, ?_⟩
  · refine (θ_run Cert.KernelIdeal.defs _ _).mono (fun r h c => ⟨?_, (h c).2⟩) (Cert.KernelIdeal.Tiles.run_value m ρ)
    exact (h c).1.trans ((Cert.KernelIdeal.Vals.val_v13 m c).trans
      (Cert.Spec.forwardK_eq _ _ _ _ _ _ _ _ (Cert.KernelIdeal.Vals.src_range m hpre c)))
  · refine (θ_run Cert.ReferenceIdeal.defs _ _).mono (fun _ h c => ⟨?_, (h c).2⟩) (Cert.ReferenceIdeal.Value.run (F := Ideal) m' ρ')
    have hs : ∀ e : Fin 1600000, ((m' ((c.tc : Thread Cert.ReferenceIdeal.nD Cert.ReferenceIdeal.τ).loc Cert.ReferenceIdeal.main_arg6) : Cert.Spec.I1 1600000) (Idealize.ShloMosaic.ValueIdx.ix1 e)).toNat < 100000 := by
      intro e; rw [(hagree c).2.2.2.2.2.2.1]; exact Cert.KernelIdeal.Vals.src_range m hpre c e
    refine (h c).1.trans ((Cert.ReferenceIdeal.RefValue.ref_eq m' c hs).trans ?_)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
